-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v172) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S20000 : Shape := ⟨1, ![20000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S128x10 .f32) (main_arg14 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg13
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S5x128x128 .f32) (main_arg10 : FVec F S5x128 .f32) (main_arg11 : FVec F S128x128 .f32) (main_arg12 : FVec F S128 .f32) (main_arg13 : FVec F S128x10 .f32) (main_arg14 : FVec F S10 .f32) (main_v33 : IVec S_ 1) : IVec S_ 1 :=
  let main_v34 : FVec F S5x128x128 .f32 := Host.absf main_arg9
  let main_cst_12 : FVec F S_ .f32 := constant S_ .f32 0x7F800000#32
  let main_v35 : FVec F S5x128x128 .f32 := broadcastInDim S5x128x128 ![] bcast_S_S5x128x128 main_cst_12
  let main_v36 : IVec S5x128x128 1 := cmpf .olt main_v34 main_v35
  let main_c_13 : IVec S_ 1 := constantI S_ 1 1#1
  let main_v37 : IVec S_ 1 := (fun x v => Host.reduce IntOp.andi x v reducesTo_S5x128x128_S_d0_1_2 h_S_) main_v36 main_c_13
  let main_v38 : IVec S_ 1 := andi main_v33 main_v37
  let main_v39 : FVec F S5x128 .f32 := Host.absf main_arg10
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S5x128 .f32) (main_arg7 : FVec F S5x128 .f32) (main_arg8 : FVec F S5x128 .f32) (main_arg9 : FVec F S5x128x128 .f32) (main_arg10 : FVec F S5x128 .f32) (main_arg11 : FVec F S128x128 .f32) (main_arg12 : FVec F S128 .f32) (main_arg13 : FVec F S128x10 .f32) (main_arg14 : FVec F S10 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128 .f32 := Host.absf main_arg6
  let main_cst_6 : FVec F S_ .f32 := constant S_ .f32 0x7F800000#32
  let main_v20 : FVec F S5x128 .f32 := broadcastInDim S5x128 ![] bcast_S_S5x128 main_cst_6
  let main_v21 : IVec S5x128 1 := cmpf .olt main_v19 main_v20
  let main_c_7 : IVec S_ 1 := constantI S_ 1 1#1
  let main_v22 : IVec S_ 1 := (fun x v => Host.reduce IntOp.andi x v reducesTo_S5x128_S_d0_1 h_S_) main_v21 main_c_7
  let main_v23 : IVec S_ 1 := andi main_v18 main_v22
  let main_v24 : FVec F S5x128 .f32 := Host.absf main_arg7
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg8
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S20000x128 .f32) (main_arg1 : IVec S2x640000 32) (main_arg2 : IVec S20000 32) (main_arg3 : FVec F S5x128x128 .f32) (main_arg4 : FVec F S5x128 .f32) (main_arg5 : FVec F S5x128 .f32) (main_arg6 : FVec F S5x128 .f32) (main_arg7 : FVec F S5x128 .f32) (main_arg8 : FVec F S5x128 .f32) (main_arg9 : FVec F S5x128x128 .f32) (main_arg10 : FVec F S5x128 .f32) (main_arg11 : FVec F S128x128 .f32) (main_arg12 : FVec F S128 .f32) (main_arg13 : FVec F S128x10 .f32) (main_arg14 : FVec F S10 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S5x128x128 .f32 := Host.absf main_arg3
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S5x128 .f32 := Host.absf main_arg4
  let main_cst_2 : FVec F S_ .f32 := constant S_ .f32 0x7F800000#32
  let main_v10 : FVec F S5x128 .f32 := broadcastInDim S5x128 ![] bcast_S_S5x128 main_cst_2
  let main_v11 : IVec S5x128 1 := cmpf .olt main_v9 main_v10
  let main_c_3 : IVec S_ 1 := constantI S_ 1 1#1
  let main_v12 : IVec S_ 1 := (fun x v => Host.reduce IntOp.andi x v reducesTo_S5x128_S_d0_1 h_S_) main_v11 main_c_3
  let main_v13 : IVec S_ 1 := andi main_v8 main_v12
  let main_v14 : FVec F S5x128 .f32 := Host.absf main_arg5
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg6 main_arg7 main_arg8 main_arg9 main_arg10 main_arg11 main_arg12 main_arg13 main_arg14 main_v13 main_v16
-- ==== Kernel.lean ====
abbrev S20000x128 : Shape := ⟨2, ![20000, 128]⟩
abbrev S2x640000 : Shape := ⟨2, ![2, 640000]⟩
abbrev S20000 : Shape := ⟨1, ![20000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S1x128 : Shape := ⟨2, ![1, 128]⟩
abbrev S2000x128 : Shape := ⟨2, ![2000, 128]⟩
abbrev S20000x1 : Shape := ⟨2, ![20000, 1]⟩
abbrev S1x10 : Shape := ⟨2, ![1, 10]⟩
abbrev S4000x128 : Shape := ⟨2, ![4000, 128]⟩
abbrev S4000x1 : Shape := ⟨2, ![4000, 1]⟩
abbrev S128x1 : Shape := ⟨2, ![128, 1]⟩

abbrev nBuf : Space → Nat
  | .hbm => 203
  | .vmem => 80
  | .smem => 0
  | _ => 0

abbrev hbmTy0_0 (i : Nat) : BufTy := match i % 128 with
  | 0 => ⟨S20000x128, .f32⟩
  | 1 => ⟨S2x640000, .i32⟩
  | 2 => ⟨S20000, .i32⟩
  | 3 => ⟨S5x128x128, .f32⟩
  | 4 => ⟨S5x128, .f32⟩
  | 5 => ⟨S5x128, .f32⟩
  | 6 => ⟨S5x128, .f32⟩
  | 7 => ⟨S5x128, .f32⟩
  | 8 => ⟨S5x128, .f32⟩
  | 9 => ⟨S5x128x128, .f32⟩
  | 10 => ⟨S5x128, .f32⟩
  | 11 => ⟨S128x128, .f32⟩
  | 12 => ⟨S128, .f32⟩
  | 13 => ⟨S128x10, .f32⟩
  | 14 => ⟨S10, .f32⟩
  | 15 => ⟨S1x640000, .i32⟩
  | 16 => ⟨S640000, .i32⟩
  | 17 => ⟨S1x640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x128, .f32⟩
  | 28 => ⟨S_, .f32⟩
  | 29 => ⟨S20000x128, .f32⟩
  | 30 => ⟨S640000x1, .i32⟩
  | 31 => ⟨S20000x128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S20000x128, .f32⟩
  | 55 => ⟨S_, .i32⟩
  | 56 => ⟨S640000, .i32⟩
  | 57 => ⟨S640000, .i1⟩
  | 58 => ⟨S_, .i32⟩
  | 59 => ⟨S640000, .i32⟩
  | 60 => ⟨S640000, .i32⟩
  | 61 => ⟨S640000, .i32⟩
  | 62 => ⟨S640000x1, .i32⟩
  | 63 => ⟨S640000x128, .f32⟩
  | 64 => ⟨S_, .f32⟩
  | 65 => ⟨S20000x128, .f32⟩
  | 66 => ⟨S640000x1, .i32⟩
  | 67 => ⟨S20000x128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128x128, .f32⟩
  | 81 => ⟨S128x128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S20000x128, .f32⟩
  | 91 => ⟨S_, .i32⟩
  | 92 => ⟨S640000, .i32⟩
  | 93 => ⟨S640000, .i1⟩
  | 94 => ⟨S_, .i32⟩
  | 95 => ⟨S640000, .i32⟩
  | 96 => ⟨S640000, .i32⟩
  | 97 => ⟨S640000, .i32⟩
  | 98 => ⟨S640000x1, .i32⟩
  | 99 => ⟨S640000x128, .f32⟩
  | 100 => ⟨S_, .f32⟩
  | 101 => ⟨S20000x128, .f32⟩
  | 102 => ⟨S640000x1, .i32⟩
  | 103 => ⟨S20000x128, .f32⟩
  | 104 => ⟨S1x128x128, .f32⟩
  | 105 => ⟨S128x128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S128, .f32⟩
  | 112 => ⟨S1x128, .f32⟩
  | 113 => ⟨S128, .f32⟩
  | 114 => ⟨S1x128, .f32⟩
  | 115 => ⟨S128, .f32⟩
  | 116 => ⟨S1x128x128, .f32⟩
  | 117 => ⟨S128x128, .f32⟩
  | 118 => ⟨S1x128, .f32⟩
  | 119 => ⟨S128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S20000x128, .f32⟩
  | 127 => ⟨S_, .i32⟩
  | _ => ⟨S20000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x128, .f32⟩
  | 8 => ⟨S_, .f32⟩
  | 9 => ⟨S20000x128, .f32⟩
  | 10 => ⟨S640000x1, .i32⟩
  | 11 => ⟨S20000x128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128x128, .f32⟩
  | 25 => ⟨S128x128, .f32⟩
  | 26 => ⟨S1x128, .f32⟩
  | 27 => ⟨S128, .f32⟩
  | 28 => ⟨S1x128, .f32⟩
  | 29 => ⟨S1x128, .f32⟩
  | 30 => ⟨S1x128, .f32⟩
  | 31 => ⟨S1x128, .f32⟩
  | 32 => ⟨S1x128, .f32⟩
  | 33 => ⟨S1x128, .f32⟩
  | 34 => ⟨S20000x128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .f32⟩
  | 44 => ⟨S_, .f32⟩
  | 45 => ⟨S20000x128, .f32⟩
  | 46 => ⟨S640000x1, .i32⟩
  | 47 => ⟨S20000x128, .f32⟩
  | 48 => ⟨S1x128x128, .f32⟩
  | 49 => ⟨S128x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128x128, .f32⟩
  | 61 => ⟨S128x128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S1x128, .f32⟩
  | 69 => ⟨S1x128, .f32⟩
  | 70 => ⟨S20000x128, .f32⟩
  | 71 => ⟨S20000x1, .i32⟩
  | 72 => ⟨S1x128, .f32⟩
  | 73 => ⟨S1x10, .f32⟩
  | 74 => ⟨S128x10, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S2000x128, .f32⟩
  | .local _ .vmem, ⟨55, _⟩ => ⟨S2000x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S128x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S1x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S2000x128, .f32⟩
  | .local _ .vmem, ⟨69, _⟩ => ⟨S2000x128, .f32⟩
  | .local _ .vmem, ⟨70, _⟩ => ⟨S4000x128, .f32⟩
  | .local _ .vmem, ⟨71, _⟩ => ⟨S4000x128, .f32⟩
  | .local _ .vmem, ⟨72, _⟩ => ⟨S4000x1, .i32⟩
  | .local _ .vmem, ⟨73, _⟩ => ⟨S4000x1, .i32⟩
  | .local _ .vmem, ⟨74, _⟩ => ⟨S128x128, .f32⟩
  | .local _ .vmem, ⟨75, _⟩ => ⟨S1x128, .f32⟩
  | .local _ .vmem, ⟨76, _⟩ => ⟨S128x10, .f32⟩
  | .local _ .vmem, ⟨77, _⟩ => ⟨S1x10, .f32⟩
  | .local _ .vmem, ⟨78, _⟩ => ⟨S128x10, .f32⟩
  | .local _ .vmem, ⟨79, _⟩ => ⟨S128x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_1 : Ref sig .tc := ⟨.hbm, 55, rfl⟩
abbrev main_v37 : Ref sig .tc := ⟨.hbm, 56, rfl⟩
abbrev main_v38 : Ref sig .tc := ⟨.hbm, 57, rfl⟩
abbrev main_c_2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_3 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_c_4 : Ref sig .tc := ⟨.hbm, 91, rfl⟩
abbrev main_v70 : Ref sig .tc := ⟨.hbm, 92, rfl⟩
abbrev main_v71 : Ref sig .tc := ⟨.hbm, 93, rfl⟩
abbrev main_c_5 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_6 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_c_7 : Ref sig .tc := ⟨.hbm, 127, rfl⟩
abbrev main_v103 : Ref sig .tc := ⟨.hbm, 128, rfl⟩
abbrev main_v104 : Ref sig .tc := ⟨.hbm, 129, rfl⟩
abbrev main_c_8 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_9 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_c_10 : Ref sig .tc := ⟨.hbm, 163, rfl⟩
abbrev main_v136 : Ref sig .tc := ⟨.hbm, 164, rfl⟩
abbrev main_v137 : Ref sig .tc := ⟨.hbm, 165, rfl⟩
abbrev main_c_11 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_12 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_stg7_0 : Ref sig .tc := ⟨.vmem, 51, rfl⟩
abbrev cc3_stg8_0 : Ref sig .tc := ⟨.vmem, 52, rfl⟩
abbrev cc3_stg9_0 : Ref sig .tc := ⟨.vmem, 53, rfl⟩
abbrev cc3_stg10_0 : Ref sig .tc := ⟨.vmem, 54, rfl⟩
abbrev cc3_stg10_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg3_0 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg7_0 : Ref sig .tc := ⟨.vmem, 65, rfl⟩
abbrev cc4_stg8_0 : Ref sig .tc := ⟨.vmem, 66, rfl⟩
abbrev cc4_stg9_0 : Ref sig .tc := ⟨.vmem, 67, rfl⟩
abbrev cc4_stg10_0 : Ref sig .tc := ⟨.vmem, 68, rfl⟩
abbrev cc4_stg10_1 : Ref sig .tc := ⟨.vmem, 69, rfl⟩
abbrev cc5_stg0_0 : Ref sig .tc := ⟨.vmem, 70, rfl⟩
abbrev cc5_stg0_1 : Ref sig .tc := ⟨.vmem, 71, rfl⟩
abbrev cc5_stg1_0 : Ref sig .tc := ⟨.vmem, 72, rfl⟩
abbrev cc5_stg1_1 : Ref sig .tc := ⟨.vmem, 73, rfl⟩
abbrev cc5_stg2_0 : Ref sig .tc := ⟨.vmem, 74, rfl⟩
abbrev cc5_stg3_0 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg6_0 : Ref sig .tc := ⟨.vmem, 78, rfl⟩
abbrev cc5_scratch0 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50
abbrev cc3_sem7_0 : DmaSem sig := 51
abbrev cc3_sem8_0 : DmaSem sig := 52
abbrev cc3_sem9_0 : DmaSem sig := 53
abbrev cc3_sem10_0 : DmaSem sig := 54
abbrev cc3_sem10_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem3_0 : DmaSem sig := 61
abbrev cc4_sem4_0 : DmaSem sig := 62
abbrev cc4_sem5_0 : DmaSem sig := 63
abbrev cc4_sem6_0 : DmaSem sig := 64
abbrev cc4_sem7_0 : DmaSem sig := 65
abbrev cc4_sem8_0 : DmaSem sig := 66
abbrev cc4_sem9_0 : DmaSem sig := 67
abbrev cc4_sem10_0 : DmaSem sig := 68
abbrev cc4_sem10_1 : DmaSem sig := 69
abbrev cc5_sem0_0 : DmaSem sig := 70
abbrev cc5_sem0_1 : DmaSem sig := 71
abbrev cc5_sem1_0 : DmaSem sig := 72
abbrev cc5_sem1_1 : DmaSem sig := 73
abbrev cc5_sem2_0 : DmaSem sig := 74
abbrev cc5_sem3_0 : DmaSem sig := 75
abbrev cc5_sem4_0 : DmaSem sig := 76
abbrev cc5_sem5_0 : DmaSem sig := 77
abbrev cc5_sem6_0 : DmaSem sig := 78

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![5], ![false]⟩

def k5_cond1 (i : grid5.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k5_cond2 (i : grid5.Coords) : BitVec 1 :=
  let arg0 : BitVec 32 := BitVec.ofNat 32 (i 0).val
  let c4_i32 : BitVec 32 := 4#32
  let v18 : BitVec 1 := Scalar.cmpi .eq arg0 c4_i32
  let v19 : BitVec 32 := Scalar.extui v18
  let c0_i32_8 : BitVec 32 := 0#32
  let v20 : BitVec 1 := Scalar.cmpi .ne v19 c0_i32_8
  v20

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x10 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  shapeCasts_S20000_S20000x1 : S20000.ShapeCasts S20000x1
  shapeCasts_S10_S1x10 : S10.ShapeCasts S1x10
  inb_S128x10_S128x10_0_0 : ∀ a, (![0, 0] : Fin 2 → Nat) a + S128x10.size a ≤ S128x10.size a
  h_S128x10 : 0 < S128x10.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x128_d1_w32 : S4000x128.Iotas .tc 32 [1]
  broadcasts_S4000x1_S4000x128 : S4000x1.Broadcasts S4000x128
  natLt_1_32 : 1 < 32
  broadcasts_S1x128_S128x128 : S1x128.Broadcasts S128x128
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  dot_S4000x128_S4000x128_S128x128_0_0_1_1_n_n_wf : DotDims.WF S4000x128 S4000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S20000x128.size a
  hwx0_10 : ∀ i : grid0.Coords, EltTy.bits .f32 = 32 ∨ (Rect.block (s := S20000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S20000x128.size a
  hwx1_10 : ∀ i : grid1.Coords, EltTy.bits .f32 = 32 ∨ (Rect.block (s := S20000x128) S2000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S20000x128.size a
  hwx2_10 : ∀ i : grid2.Coords, EltTy.bits .f32 = 32 ∨ (Rect.block (s := S20000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S20000x128.size a
  hwx3_1 : ∀ i : grid3.Coords, EltTy.bits .f32 = 32 ∨ (Rect.block (s := S20000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S20000x128.size a
  hwx3_10 : ∀ i : grid3.Coords, EltTy.bits .f32 = 32 ∨ (Rect.block (s := S20000x128) S2000x128.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S20000x128.size a
  hwx4_0 : ∀ i : grid4.Coords, EltTy.bits .f32 = 32 ∨ (Rect.block (s := S20000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S20000x128.size a
  hwx4_1 : ∀ i : grid4.Coords, EltTy.bits .f32 = 32 ∨ (Rect.block (s := S20000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128x128.size a ≤ S128x128.size a
  hwx4_8 : ∀ i : grid4.Coords, EltTy.bits .f32 = 32 ∨ (Rect.block (s := S128x128) S128x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x128.size a ≤ S20000x128.size a
  hwx4_10 : ∀ i : grid4.Coords, EltTy.bits .f32 = 32 ∨ (Rect.block (s := S20000x128) S2000x128.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x128.size a ≤ S20000x128.size a
  hwx5_0 : ∀ i : grid5.Coords, EltTy.bits .f32 = 32 ∨ (Rect.block (s := S20000x128) S4000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x1.size a ≤ S20000x1.size a
  hwx5_1 : ∀ i : grid5.Coords, EltTy.bits .i32 = 32 ∨ (Rect.block (s := S20000x1) S4000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x10.size a ≤ S128x10.size a
  hwx5_4 : ∀ i : grid5.Coords, EltTy.bits .f32 = 32 ∨ (Rect.block (s := S128x10) S128x10.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x10.size a ≤ S1x10.size a
  hwx5_5 : ∀ i : grid5.Coords, EltTy.bits .f32 = 32 ∨ (Rect.block (s := S1x10) S1x10.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x10.size a ≤ S128x10.size a
  hwx5_6 : ∀ i : grid5.Coords, EltTy.bits .f32 = 32 ∨ (Rect.block (s := S128x10) S128x10.size (cc5_transform_6 i) (hinb5_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x128_S4000x128_S128x128_0_0_1_1_n_n : DotDims S4000x128 S4000x128 S128x128 where
  lhsContracting := [0]
  rhsContracting := [0]
  lhsNonContracting := [1]
  rhsNonContracting := [1]
  lhsBatch := []
  rhsBatch := []
  wf := dot_S4000x128_S4000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v64) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v66) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v60) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v68) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v69) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v69) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v81) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v97) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v98) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v99) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v100) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v93) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v101) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v102) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v102) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v112) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v114) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v129) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v130) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v131) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v132) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v133) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v126) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v134) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v135) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v135) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v145) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v147) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v162) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v163) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v164) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v165) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v166) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v159) S128x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v167) S1x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v168) S2000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v168) S4000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v169) S4000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v170) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg13) S128x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v171) S1x10.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v172) S128x10.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond1 i == 1#1) && !(k5_cond2 i == 1#1) | ⟨_ + 7, h⟩ => absurd h (Nat.not_lt.2 (Nat.le_add_left _ _))

class Facts : Prop extends Facts₀ where

variable [Facts]
-- ==== ReferenceIdeal.lean ====
abbrev S20000x128 : Shape := ⟨2, ![20000, 128]⟩
abbrev S2x640000 : Shape := ⟨2, ![2, 640000]⟩
abbrev S20000 : Shape := ⟨1, ![20000]⟩
abbrev S5x128x128 : Shape := ⟨3, ![5, 128, 128]⟩
abbrev S5x128 : Shape := ⟨2, ![5, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S1x128x128 : Shape := ⟨3, ![1, 128, 128]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S20000x1 : Shape := ⟨2, ![20000, 1]⟩
abbrev S1x10 : Shape := ⟨2, ![1, 10]⟩
abbrev S128x1 : Shape := ⟨2, ![128, 1]⟩

abbrev nBuf : Space → Nat
  | .hbm => 349
  | .vmem => 0
  | .smem => 0
  | _ => 0

abbrev hbmTy0_0 (i : Nat) : BufTy := match i % 128 with
  | 0 => ⟨S20000x128, .f32⟩
  | 1 => ⟨S2x640000, .i32⟩
  | 2 => ⟨S20000, .i32⟩
  | 3 => ⟨S5x128x128, .f32⟩
  | 4 => ⟨S5x128, .f32⟩
  | 5 => ⟨S5x128, .f32⟩
  | 6 => ⟨S5x128, .f32⟩
  | 7 => ⟨S5x128, .f32⟩
  | 8 => ⟨S5x128, .f32⟩
  | 9 => ⟨S5x128x128, .f32⟩
  | 10 => ⟨S5x128, .f32⟩
  | 11 => ⟨S128x128, .f32⟩
  | 12 => ⟨S128, .f32⟩
  | 13 => ⟨S128x10, .f32⟩
  | 14 => ⟨S10, .f32⟩
  | 15 => ⟨S1x640000, .i32⟩
  | 16 => ⟨S640000, .i32⟩
  | 17 => ⟨S1x640000, .i32⟩
  | 18 => ⟨S640000, .i32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000x128, .f32⟩
  | 44 => ⟨S_, .f32⟩
  | 45 => ⟨S20000x128, .f32⟩
  | 46 => ⟨S640000x1, .i32⟩
  | 47 => ⟨S20000x128, .f32⟩
  | 48 => ⟨S20000x128, .f32⟩
  | 49 => ⟨S20000x128, .f32⟩
  | 50 => ⟨S1x128, .f32⟩
  | 51 => ⟨S20000x128, .f32⟩
  | 52 => ⟨S20000x128, .f32⟩
  | 53 => ⟨S1x128, .f32⟩
  | 54 => ⟨S20000x128, .f32⟩
  | 55 => ⟨S20000x128, .f32⟩
  | 56 => ⟨S1x128, .f32⟩
  | 57 => ⟨S20000x128, .f32⟩
  | 58 => ⟨S20000x128, .f32⟩
  | 59 => ⟨S_, .f32⟩
  | 60 => ⟨S128, .f32⟩
  | 61 => ⟨S128, .f32⟩
  | 62 => ⟨S128, .f32⟩
  | 63 => ⟨S1x128, .f32⟩
  | 64 => ⟨S20000x128, .f32⟩
  | 65 => ⟨S20000x128, .f32⟩
  | 66 => ⟨S1x128, .f32⟩
  | 67 => ⟨S20000x128, .f32⟩
  | 68 => ⟨S20000x128, .f32⟩
  | 69 => ⟨S_, .f32⟩
  | 70 => ⟨S20000x128, .f32⟩
  | 71 => ⟨S20000x128, .f32⟩
  | 72 => ⟨S20000x128, .f32⟩
  | 73 => ⟨S1x128, .f32⟩
  | 74 => ⟨S20000x128, .f32⟩
  | 75 => ⟨S20000x128, .f32⟩
  | 76 => ⟨S_, .f32⟩
  | 77 => ⟨S20000x128, .f32⟩
  | 78 => ⟨S20000x128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128x128, .f32⟩
  | 92 => ⟨S128x128, .f32⟩
  | 93 => ⟨S1x128, .f32⟩
  | 94 => ⟨S128, .f32⟩
  | 95 => ⟨S_, .i32⟩
  | 96 => ⟨S640000, .i32⟩
  | 97 => ⟨S640000, .i1⟩
  | 98 => ⟨S_, .i32⟩
  | 99 => ⟨S640000, .i32⟩
  | 100 => ⟨S640000, .i32⟩
  | 101 => ⟨S640000, .i32⟩
  | 102 => ⟨S640000x1, .i32⟩
  | 103 => ⟨S640000x128, .f32⟩
  | 104 => ⟨S_, .f32⟩
  | 105 => ⟨S20000x128, .f32⟩
  | 106 => ⟨S640000x1, .i32⟩
  | 107 => ⟨S20000x128, .f32⟩
  | 108 => ⟨S20000x128, .f32⟩
  | 109 => ⟨S20000x128, .f32⟩
  | 110 => ⟨S1x128, .f32⟩
  | 111 => ⟨S20000x128, .f32⟩
  | 112 => ⟨S20000x128, .f32⟩
  | 113 => ⟨S1x128, .f32⟩
  | 114 => ⟨S20000x128, .f32⟩
  | 115 => ⟨S20000x128, .f32⟩
  | 116 => ⟨S1x128, .f32⟩
  | 117 => ⟨S20000x128, .f32⟩
  | 118 => ⟨S20000x128, .f32⟩
  | 119 => ⟨S_, .f32⟩
  | 120 => ⟨S128, .f32⟩
  | 121 => ⟨S128, .f32⟩
  | 122 => ⟨S128, .f32⟩
  | 123 => ⟨S1x128, .f32⟩
  | 124 => ⟨S20000x128, .f32⟩
  | 125 => ⟨S20000x128, .f32⟩
  | 126 => ⟨S1x128, .f32⟩
  | 127 => ⟨S20000x128, .f32⟩
  | _ => ⟨S20000x128, .f32⟩

abbrev hbmTy0_1 (i : Nat) : BufTy := match i % 128 with
  | 0 => ⟨S20000x128, .f32⟩
  | 1 => ⟨S_, .f32⟩
  | 2 => ⟨S20000x128, .f32⟩
  | 3 => ⟨S20000x128, .f32⟩
  | 4 => ⟨S20000x128, .f32⟩
  | 5 => ⟨S1x128, .f32⟩
  | 6 => ⟨S20000x128, .f32⟩
  | 7 => ⟨S20000x128, .f32⟩
  | 8 => ⟨S_, .f32⟩
  | 9 => ⟨S20000x128, .f32⟩
  | 10 => ⟨S20000x128, .f32⟩
  | 11 => ⟨S1x128x128, .f32⟩
  | 12 => ⟨S128x128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128x128, .f32⟩
  | 24 => ⟨S128x128, .f32⟩
  | 25 => ⟨S1x128, .f32⟩
  | 26 => ⟨S128, .f32⟩
  | 27 => ⟨S_, .i32⟩
  | 28 => ⟨S640000, .i32⟩
  | 29 => ⟨S640000, .i1⟩
  | 30 => ⟨S_, .i32⟩
  | 31 => ⟨S640000, .i32⟩
  | 32 => ⟨S640000, .i32⟩
  | 33 => ⟨S640000, .i32⟩
  | 34 => ⟨S640000x1, .i32⟩
  | 35 => ⟨S640000x128, .f32⟩
  | 36 => ⟨S_, .f32⟩
  | 37 => ⟨S20000x128, .f32⟩
  | 38 => ⟨S640000x1, .i32⟩
  | 39 => ⟨S20000x128, .f32⟩
  | 40 => ⟨S20000x128, .f32⟩
  | 41 => ⟨S20000x128, .f32⟩
  | 42 => ⟨S1x128, .f32⟩
  | 43 => ⟨S20000x128, .f32⟩
  | 44 => ⟨S20000x128, .f32⟩
  | 45 => ⟨S1x128, .f32⟩
  | 46 => ⟨S20000x128, .f32⟩
  | 47 => ⟨S20000x128, .f32⟩
  | 48 => ⟨S1x128, .f32⟩
  | 49 => ⟨S20000x128, .f32⟩
  | 50 => ⟨S20000x128, .f32⟩
  | 51 => ⟨S_, .f32⟩
  | 52 => ⟨S128, .f32⟩
  | 53 => ⟨S128, .f32⟩
  | 54 => ⟨S128, .f32⟩
  | 55 => ⟨S1x128, .f32⟩
  | 56 => ⟨S20000x128, .f32⟩
  | 57 => ⟨S20000x128, .f32⟩
  | 58 => ⟨S1x128, .f32⟩
  | 59 => ⟨S20000x128, .f32⟩
  | 60 => ⟨S20000x128, .f32⟩
  | 61 => ⟨S_, .f32⟩
  | 62 => ⟨S20000x128, .f32⟩
  | 63 => ⟨S20000x128, .f32⟩
  | 64 => ⟨S20000x128, .f32⟩
  | 65 => ⟨S1x128, .f32⟩
  | 66 => ⟨S20000x128, .f32⟩
  | 67 => ⟨S20000x128, .f32⟩
  | 68 => ⟨S_, .f32⟩
  | 69 => ⟨S20000x128, .f32⟩
  | 70 => ⟨S20000x128, .f32⟩
  | 71 => ⟨S1x128x128, .f32⟩
  | 72 => ⟨S128x128, .f32⟩
  | 73 => ⟨S1x128, .f32⟩
  | 74 => ⟨S128, .f32⟩
  | 75 => ⟨S1x128, .f32⟩
  | 76 => ⟨S128, .f32⟩
  | 77 => ⟨S1x128, .f32⟩
  | 78 => ⟨S128, .f32⟩
  | 79 => ⟨S1x128, .f32⟩
  | 80 => ⟨S128, .f32⟩
  | 81 => ⟨S1x128, .f32⟩
  | 82 => ⟨S128, .f32⟩
  | 83 => ⟨S1x128x128, .f32⟩
  | 84 => ⟨S128x128, .f32⟩
  | 85 => ⟨S1x128, .f32⟩
  | 86 => ⟨S128, .f32⟩
  | 87 => ⟨S_, .i32⟩
  | 88 => ⟨S640000, .i32⟩
  | 89 => ⟨S640000, .i1⟩
  | 90 => ⟨S_, .i32⟩
  | 91 => ⟨S640000, .i32⟩
  | 92 => ⟨S640000, .i32⟩
  | 93 => ⟨S640000, .i32⟩
  | 94 => ⟨S640000x1, .i32⟩
  | 95 => ⟨S640000x128, .f32⟩
  | 96 => ⟨S_, .f32⟩
  | 97 => ⟨S20000x128, .f32⟩
  | 98 => ⟨S640000x1, .i32⟩
  | 99 => ⟨S20000x128, .f32⟩
  | 100 => ⟨S20000x128, .f32⟩
  | 101 => ⟨S20000x128, .f32⟩
  | 102 => ⟨S1x128, .f32⟩
  | 103 => ⟨S20000x128, .f32⟩
  | 104 => ⟨S20000x128, .f32⟩
  | 105 => ⟨S1x128, .f32⟩
  | 106 => ⟨S20000x128, .f32⟩
  | 107 => ⟨S20000x128, .f32⟩
  | 108 => ⟨S1x128, .f32⟩
  | 109 => ⟨S20000x128, .f32⟩
  | 110 => ⟨S20000x128, .f32⟩
  | 111 => ⟨S_, .f32⟩
  | 112 => ⟨S128, .f32⟩
  | 113 => ⟨S128, .f32⟩
  | 114 => ⟨S128, .f32⟩
  | 115 => ⟨S1x128, .f32⟩
  | 116 => ⟨S20000x128, .f32⟩
  | 117 => ⟨S20000x128, .f32⟩
  | 118 => ⟨S1x128, .f32⟩
  | 119 => ⟨S20000x128, .f32⟩
  | 120 => ⟨S20000x128, .f32⟩
  | 121 => ⟨S_, .f32⟩
  | 122 => ⟨S20000x128, .f32⟩
  | 123 => ⟨S20000x128, .f32⟩
  | 124 => ⟨S20000x128, .f32⟩
  | 125 => ⟨S1x128, .f32⟩
  | 126 => ⟨S20000x128, .f32⟩
  | 127 => ⟨S20000x128, .f32⟩
  | _ => ⟨S20000x128, .f32⟩

abbrev hbmTy0_2 (i : Nat) : BufTy := match i % 128 with
  | 0 => ⟨S_, .f32⟩
  | 1 => ⟨S20000x128, .f32⟩
  | 2 => ⟨S20000x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128x128, .f32⟩
  | 16 => ⟨S128x128, .f32⟩
  | 17 => ⟨S1x128, .f32⟩
  | 18 => ⟨S128, .f32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x128, .f32⟩
  | 28 => ⟨S_, .f32⟩
  | 29 => ⟨S20000x128, .f32⟩
  | 30 => ⟨S640000x1, .i32⟩
  | 31 => ⟨S20000x128, .f32⟩
  | 32 => ⟨S20000x128, .f32⟩
  | 33 => ⟨S20000x128, .f32⟩
  | 34 => ⟨S1x128, .f32⟩
  | 35 => ⟨S20000x128, .f32⟩
  | 36 => ⟨S20000x128, .f32⟩
  | 37 => ⟨S1x128, .f32⟩
  | 38 => ⟨S20000x128, .f32⟩
  | 39 => ⟨S20000x128, .f32⟩
  | 40 => ⟨S1x128, .f32⟩
  | 41 => ⟨S20000x128, .f32⟩
  | 42 => ⟨S20000x128, .f32⟩
  | 43 => ⟨S_, .f32⟩
  | 44 => ⟨S128, .f32⟩
  | 45 => ⟨S128, .f32⟩
  | 46 => ⟨S128, .f32⟩
  | 47 => ⟨S1x128, .f32⟩
  | 48 => ⟨S20000x128, .f32⟩
  | 49 => ⟨S20000x128, .f32⟩
  | 50 => ⟨S1x128, .f32⟩
  | 51 => ⟨S20000x128, .f32⟩
  | 52 => ⟨S20000x128, .f32⟩
  | 53 => ⟨S_, .f32⟩
  | 54 => ⟨S20000x128, .f32⟩
  | 55 => ⟨S20000x128, .f32⟩
  | 56 => ⟨S20000x128, .f32⟩
  | 57 => ⟨S1x128, .f32⟩
  | 58 => ⟨S20000x128, .f32⟩
  | 59 => ⟨S20000x128, .f32⟩
  | 60 => ⟨S_, .f32⟩
  | 61 => ⟨S20000x128, .f32⟩
  | 62 => ⟨S20000x128, .f32⟩
  | 63 => ⟨S_, .f32⟩
  | 64 => ⟨S128x128, .f32⟩
  | 65 => ⟨S20000x1, .i32⟩
  | 66 => ⟨S128x128, .f32⟩
  | 67 => ⟨S128x128, .f32⟩
  | 68 => ⟨S1x128, .f32⟩
  | 69 => ⟨S128x128, .f32⟩
  | 70 => ⟨S128x128, .f32⟩
  | 71 => ⟨S_, .f32⟩
  | 72 => ⟨S128x128, .f32⟩
  | 73 => ⟨S128x128, .f32⟩
  | 74 => ⟨S128x10, .f32⟩
  | 75 => ⟨S1x10, .f32⟩
  | 76 => ⟨S128x10, .f32⟩
  | 77 => ⟨S128x10, .f32⟩
  | 78 => ⟨S_, .f32⟩
  | 79 => ⟨S128, .f32⟩
  | 80 => ⟨S_, .f32⟩
  | 81 => ⟨S128, .f32⟩
  | 82 => ⟨S128, .f32⟩
  | 83 => ⟨S128x1, .f32⟩
  | 84 => ⟨S128x10, .f32⟩
  | 85 => ⟨S128x10, .f32⟩
  | 86 => ⟨S128x10, .f32⟩
  | 87 => ⟨S_, .f32⟩
  | 88 => ⟨S128, .f32⟩
  | 89 => ⟨S128x1, .f32⟩
  | 90 => ⟨S128x1, .f32⟩
  | 91 => ⟨S128x10, .f32⟩
  | 92 => ⟨S128x10, .f32⟩
  | _ => ⟨S20000x128, .f32⟩

abbrev hbmTy (i : Nat) : BufTy := match i / 128 with
  | 0 => hbmTy0_0 i
  | 1 => hbmTy0_1 i
  | 2 => hbmTy0_2 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_1 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call0_cst : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_call1_cst : Ref sig .tc := ⟨.hbm, 76, rfl⟩
abbrev main_call1_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_2 : Ref sig .tc := ⟨.hbm, 95, rfl⟩
abbrev main_v72 : Ref sig .tc := ⟨.hbm, 96, rfl⟩
abbrev main_v73 : Ref sig .tc := ⟨.hbm, 97, rfl⟩
abbrev main_c_3 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_4 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_5 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_call2_cst : Ref sig .tc := ⟨.hbm, 129, rfl⟩
abbrev main_call2_v0 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_call3_cst : Ref sig .tc := ⟨.hbm, 136, rfl⟩
abbrev main_call3_v0 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_c_6 : Ref sig .tc := ⟨.hbm, 155, rfl⟩
abbrev main_v124 : Ref sig .tc := ⟨.hbm, 156, rfl⟩
abbrev main_v125 : Ref sig .tc := ⟨.hbm, 157, rfl⟩
abbrev main_c_7 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_8 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_9 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_call4_cst : Ref sig .tc := ⟨.hbm, 189, rfl⟩
abbrev main_call4_v0 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_call5_cst : Ref sig .tc := ⟨.hbm, 196, rfl⟩
abbrev main_call5_v0 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_c_10 : Ref sig .tc := ⟨.hbm, 215, rfl⟩
abbrev main_v176 : Ref sig .tc := ⟨.hbm, 216, rfl⟩
abbrev main_v177 : Ref sig .tc := ⟨.hbm, 217, rfl⟩
abbrev main_c_11 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_cst_12 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_cst_13 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_call6_cst : Ref sig .tc := ⟨.hbm, 249, rfl⟩
abbrev main_call6_v0 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_call7_cst : Ref sig .tc := ⟨.hbm, 256, rfl⟩
abbrev main_call7_v0 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_c_14 : Ref sig .tc := ⟨.hbm, 275, rfl⟩
abbrev main_v228 : Ref sig .tc := ⟨.hbm, 276, rfl⟩
abbrev main_v229 : Ref sig .tc := ⟨.hbm, 277, rfl⟩
abbrev main_c_15 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_cst_16 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_cst_17 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_call8_cst : Ref sig .tc := ⟨.hbm, 309, rfl⟩
abbrev main_call8_v0 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_call9_cst : Ref sig .tc := ⟨.hbm, 316, rfl⟩
abbrev main_call9_v0 : Ref sig .tc := ⟨.hbm, 317, rfl⟩
abbrev main_v263 : Ref sig .tc := ⟨.hbm, 318, rfl⟩
abbrev main_cst_18 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_call10_cst : Ref sig .tc := ⟨.hbm, 327, rfl⟩
abbrev main_call10_v0 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_call11_cst : Ref sig .tc := ⟨.hbm, 334, rfl⟩
abbrev main_call11_v0 : Ref sig .tc := ⟨.hbm, 335, rfl⟩
abbrev main_call11_cst_0 : Ref sig .tc := ⟨.hbm, 336, rfl⟩
abbrev main_call11_v1 : Ref sig .tc := ⟨.hbm, 337, rfl⟩
abbrev main_call11_v2 : Ref sig .tc := ⟨.hbm, 338, rfl⟩
abbrev main_call11_v3 : Ref sig .tc := ⟨.hbm, 339, rfl⟩
abbrev main_call11_v4 : Ref sig .tc := ⟨.hbm, 340, rfl⟩
abbrev main_call11_v5 : Ref sig .tc := ⟨.hbm, 341, rfl⟩
abbrev main_call11_v6 : Ref sig .tc := ⟨.hbm, 342, rfl⟩
abbrev main_call11_cst_1 : Ref sig .tc := ⟨.hbm, 343, rfl⟩
abbrev main_call11_v7 : Ref sig .tc := ⟨.hbm, 344, rfl⟩
abbrev main_call11_v8 : Ref sig .tc := ⟨.hbm, 345, rfl⟩
abbrev main_call11_v9 : Ref sig .tc := ⟨.hbm, 346, rfl⟩
abbrev main_call11_v10 : Ref sig .tc := ⟨.hbm, 347, rfl⟩
abbrev main_v276 : Ref sig .tc := ⟨.hbm, 348, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S128 : S_.BroadcastsInDim S128 (![] : Fin 0 → Fin S128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S128x128 : S_.BroadcastsInDim S128x128 (![] : Fin 0 → Fin S128x128.rank)
  bcast_S20000_S20000x1_0 : S20000.BroadcastsInDim S20000x1 (![0] : Fin 1 → Fin S20000x1.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128_S128x1_0 : S128.BroadcastsInDim S128x1 (![0] : Fin 1 → Fin S128x1.rank)
  bcast_S128x1_S128x10_0_1 : S128x1.BroadcastsInDim S128x10 (![0, 1] : Fin 2 → Fin S128x10.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x128_S20000x128_1_0_0_1_n_n_wf : DotDims.WF S20000x128 S128x128 S20000x128 [1] [0] [0] [1] [] []
  scatter_S128x128_S20000x1_S20000x128_1_0_0_1_wf : ScatterDims.WF S128x128 S20000x1 S20000x128 [1] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def scatter_S128x128_S20000x1_S20000x128_1_0_0_1 : ScatterDims S128x128 S20000x1 S20000x128 where
  updateWindowDims := [1]
  insertedWindowDims := [0]
  scatterDimsToOperandDims := [0]
  indexVectorDim := 1
  wf := scatter_S128x128_S20000x1_S20000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KA0.lean ====
import proofs.«428006_j27865747816548_3_alg».proof.Proof.Gen.Kernel.Launch
import proofs.«428006_j27865747816548_3_alg».proof.Proof.Gen.Kernel.Skeleton
import proofs.«428006_j27865747816548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

def out0_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r0, k0_pay1 (k0_pay2 (View.ld x0 r0) (View.ld x1 r0) (View.ld x2 rW0) (View.ld x3 rB0) (View.ld x7 rB0) (View.ld x4 rB0) (View.ld x6 rB0) (View.ld x5 rB0) (View.ld x8 rW0)) (View.ld x9 rB0)⟩]

set_option maxHeartbeats 4000000 in
-- The one store covers the output block, so the block read back afterwards is the stored payload.
theorem sound_kernel0 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid0.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out0_10 x0 x1 x2 x3 x4 x5 x6 x7 x8 x9)) -∗ K ⟨⟩))
      ⊢ wp frame (wpE (defs₀ (F := F)) Variants.none c none) E (cc0__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc0__gin_dense_kernel_eq_skeleton]; unfold cc0__gin_dense_kernel_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := rfl

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0 (c : Dev nD) (w : Fin cfg0.W) (hw : w ≠ 10) (t : Fin cfg0.N) (d) : (dat0 V c).before w t d = (dat0 V c).after w t := by
  fin_cases w <;> first | exact absurd rfl hw | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  simp (disch := decide) only [bigSep_W0, before0]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel0 c (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.Kernel.Hand
-- ==== Proof.KA1.lean ====
import proofs.«428006_j27865747816548_3_alg».proof.Proof.Gen.Kernel.Launch
import proofs.«428006_j27865747816548_3_alg».proof.Proof.Gen.Kernel.Skeleton
import proofs.«428006_j27865747816548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S2000x128 := Rect.unit (s := S2000x128) ![0, 0] S2000x128.size inb_S2000x128_S2000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

def out1_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r1, k1_pay1 (k1_pay2 (View.ld x0 r1) (View.ld x1 r1) (View.ld x2 rW1) (View.ld x3 rB1) (View.ld x7 rB1) (View.ld x4 rB1) (View.ld x6 rB1) (View.ld x5 rB1) (View.ld x8 rW1)) (View.ld x9 rB1)⟩]

set_option maxHeartbeats 4000000 in
-- The one store covers the output block, so the block read back afterwards is the stored payload.
theorem sound_kernel1 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid1.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out1_10 x0 x1 x2 x3 x4 x5 x6 x7 x8 x9)) -∗ K ⟨⟩))
      ⊢ wp frame (wpE (defs₀ (F := F)) Variants.none c none) E (cc1__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc1__gin_dense_kernel_eq_skeleton]; unfold cc1__gin_dense_kernel_skel
  simp only [k1_part1_eq_skeleton]; unfold k1_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1 (c : Dev nD) (w : Fin cfg1.W) (hw : w ≠ 10) (t : Fin cfg1.N) (d) : (dat1 V c).before w t d = (dat1 V c).after w t := by
  fin_cases w <;> first | exact absurd rfl hw | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  simp (disch := decide) only [bigSep_W1, before1]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel1 c (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.Kernel.Hand
-- ==== Proof.KA2.lean ====
import proofs.«428006_j27865747816548_3_alg».proof.Proof.Gen.Kernel.Launch
import proofs.«428006_j27865747816548_3_alg».proof.Proof.Gen.Kernel.Skeleton
import proofs.«428006_j27865747816548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S2000x128 := Rect.unit (s := S2000x128) ![0, 0] S2000x128.size inb_S2000x128_S2000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

def out2_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r2, k2_pay1 (k2_pay2 (View.ld x0 r2) (View.ld x1 r2) (View.ld x2 rW2) (View.ld x3 rB2) (View.ld x7 rB2) (View.ld x4 rB2) (View.ld x6 rB2) (View.ld x5 rB2) (View.ld x8 rW2)) (View.ld x9 rB2)⟩]

set_option maxHeartbeats 4000000 in
-- The one store covers the output block, so the block read back afterwards is the stored payload.
theorem sound_kernel2 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid2.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out2_10 x0 x1 x2 x3 x4 x5 x6 x7 x8 x9)) -∗ K ⟨⟩))
      ⊢ wp frame (wpE (defs₀ (F := F)) Variants.none c none) E (cc2__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc2__gin_dense_kernel_eq_skeleton]; unfold cc2__gin_dense_kernel_skel
  simp only [k2_part1_eq_skeleton]; unfold k2_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := rfl

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2 (c : Dev nD) (w : Fin cfg2.W) (hw : w ≠ 10) (t : Fin cfg2.N) (d) : (dat2 V c).before w t d = (dat2 V c).after w t := by
  fin_cases w <;> first | exact absurd rfl hw | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  simp (disch := decide) only [bigSep_W2, before2]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel2 c (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.Kernel.Hand
-- ==== Proof.KA3.lean ====
import proofs.«428006_j27865747816548_3_alg».proof.Proof.Gen.Kernel.Launch
import proofs.«428006_j27865747816548_3_alg».proof.Proof.Gen.Kernel.Skeleton
import proofs.«428006_j27865747816548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3 : Rect S2000x128 := Rect.unit (s := S2000x128) ![0, 0] S2000x128.size inb_S2000x128_S2000x128_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0

def out3_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r3, k3_pay1 (k3_pay2 (View.ld x0 r3) (View.ld x1 r3) (View.ld x2 rW3) (View.ld x3 rB3) (View.ld x7 rB3) (View.ld x4 rB3) (View.ld x6 rB3) (View.ld x5 rB3) (View.ld x8 rW3)) (View.ld x9 rB3)⟩]

set_option maxHeartbeats 4000000 in
-- The one store covers the output block, so the block read back afterwards is the stored payload.
theorem sound_kernel3 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid3.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out3_10 x0 x1 x2 x3 x4 x5 x6 x7 x8 x9)) -∗ K ⟨⟩))
      ⊢ wp frame (wpE (defs₀ (F := F)) Variants.none c none) E (cc3__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc3__gin_dense_kernel_eq_skeleton]; unfold cc3__gin_dense_kernel_skel
  simp only [k3_part1_eq_skeleton]; unfold k3_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := rfl

theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

theorem before3 (c : Dev nD) (w : Fin cfg3.W) (hw : w ≠ 10) (t : Fin cfg3.N) (d) : (dat3 V c).before w t d = (dat3 V c).after w t := by
  fin_cases w <;> first | exact absurd rfl hw | exact ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  simp (disch := decide) only [bigSep_W3, before3]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel3 c (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.Kernel.Hand
-- ==== Proof.KA4.lean ====
import proofs.«428006_j27865747816548_3_alg».proof.Proof.Gen.Kernel.Launch
import proofs.«428006_j27865747816548_3_alg».proof.Proof.Gen.Kernel.Skeleton
import proofs.«428006_j27865747816548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4 : Rect S2000x128 := Rect.unit (s := S2000x128) ![0, 0] S2000x128.size inb_S2000x128_S2000x128_0_0
abbrev rW4 : Rect S128x128 := Rect.unit (s := S128x128) ![0, 0] S128x128.size inb_S128x128_S128x128_0_0
abbrev rB4 : Rect S1x128 := Rect.unit (s := S1x128) ![0, 0] S1x128.size inb_S1x128_S1x128_0_0

def out4_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r4, k4_pay1 (k4_pay2 (View.ld x0 r4) (View.ld x1 r4) (View.ld x2 rW4) (View.ld x3 rB4) (View.ld x7 rB4) (View.ld x4 rB4) (View.ld x6 rB4) (View.ld x5 rB4) (View.ld x8 rW4)) (View.ld x9 rB4)⟩]

set_option maxHeartbeats 4000000 in
-- The one store covers the output block, so the block read back afterwards is the stored payload.
theorem sound_kernel4 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid4.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out4_10 x0 x1 x2 x3 x4 x5 x6 x7 x8 x9)) -∗ K ⟨⟩))
      ⊢ wp frame (wpE (defs₀ (F := F)) Variants.none c none) E (cc4__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc4__gin_dense_kernel_eq_skeleton]; unfold cc4__gin_dense_kernel_skel
  simp only [k4_part1_eq_skeleton]; unfold k4_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q _ := fullShare
  owed _ := 0

theorem A_eq4 (c : Dev nD) (w : Fin cfg4.W) : (dat4 V c).A w = V c (Pipeline.arrRef spec4 w) := rfl

theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

theorem before4 (c : Dev nD) (w : Fin cfg4.W) (hw : w ≠ 10) (t : Fin cfg4.N) (d) : (dat4 V c).before w t d = (dat4 V c).after w t := by
  fin_cases w <;> first | exact absurd rfl hw | exact ((dat4 V c).before_in_eq_fetched _ rfl (fun _ => rfl) (fun _ _ _ => rfl) (fun _ => rfl) t d).trans rfl

theorem body_obligation4 (c : Dev nD) : BodyObligation (dat4 (F := F) V c) (defs₀ (F := F)) Variants.none () Set.univ := fun t => by
  simp (disch := decide) only [bigSep_W4, before4]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel4 c (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.Kernel.Hand
-- ==== Proof.KP5.lean ====
import proofs.«428006_j27865747816548_3_alg».proof.Proof.Gen.Kernel.Launch
import proofs.«428006_j27865747816548_3_alg».proof.Proof.Gen.Kernel.Skeleton
import proofs.«428006_j27865747816548_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_s : Rect S128x128 := Rect.unit (s := S128x128) ![0, 0] S128x128.size inb_S128x128_S128x128_0_0
abbrev r5_o : Rect S128x10 := Rect.unit (s := S128x10) ![0, 0] S128x10.size inb_S128x10_S128x10_0_0
abbrev r5_h : Rect S4000x128 := Rect.unit (s := S4000x128) ![0, 0] S4000x128.size inb_S4000x128_S4000x128_0_0
abbrev r5_b : Rect S4000x1 := Rect.unit (s := S4000x1) ![0, 0] S4000x1.size inb_S4000x1_S4000x1_0_0
abbrev r5_b1 : Rect S1x128 := Rect.unit (s := S1x128) ![0, 0] S1x128.size inb_S1x128_S1x128_0_0
abbrev r5_b2 : Rect S1x10 := Rect.unit (s := S1x10) ![0, 0] S1x10.size inb_S1x10_S1x10_0_0

theorem hz5 : (![0, 0] : Fin 2 → Nat) = fun _ => 0 := by
  funext i; fin_cases i <;> rfl

def zero5s : Vec F S128x128 .f32 := View.canon [⟨r5_s, k5_pay1 (F := F)⟩]

def zero5o : Vec F S128x10 .f32 := View.canon [⟨r5_o, k5_pay2 (F := F)⟩]

def contrib5 (h : Vec F S4000x128 .f32) (b : Vec F S4000x1 .i32) (s : Vec F S128x128 .f32) : Vec F S128x128 .f32 :=
  View.canon [⟨r5_s, k5_pay3 (View.ld h r5_h) (View.ld b r5_b) (View.ld s r5_s)⟩]

def head5 (s : Vec F S128x128 .f32) (w1 : Vec F S128x128 .f32) (b1 : Vec F S1x128 .f32) (w2 : Vec F S128x10 .f32) (b2 : Vec F S1x10 .f32) : Vec F S128x10 .f32 :=
  View.canon [⟨r5_o, k5_pay4 (View.ld s r5_s) (View.ld w1 r5_s) (View.ld b1 r5_b1) (View.ld w2 r5_o) (View.ld b2 r5_b2)⟩]

def acc5 (c : Dev nD) : (n : ℕ) → n < cfg5.N → Vec F S128x128 .f32
  | 0, hn => contrib5 (iblk5 V c 0 ⟨0, hn⟩) (iblk5 V c 1 ⟨0, hn⟩) (zero5s (F := F))
  | n + 1, hn => contrib5 (iblk5 V c 0 ⟨n + 1, hn⟩) (iblk5 V c 1 ⟨n + 1, hn⟩) (acc5 c n (Nat.lt_of_succ_lt hn))

def outAt5 (c : Dev nD) : (n : ℕ) → n < cfg5.N → Vec F S128x10 .f32
  | 0, _ => zero5o (F := F)
  | n + 1, hn =>
    if n + 1 = 4 then
      head5 (acc5 V c (n + 1) hn) (iblk5 V c 2 ⟨n + 1, hn⟩) (iblk5 V c 3 ⟨n + 1, hn⟩) (iblk5 V c 4 ⟨n + 1, hn⟩) (iblk5 V c 5 ⟨n + 1, hn⟩)
    else outAt5 c n (Nat.lt_of_succ_lt hn)

theorem acc5_zero (c : Dev nD) (h0 : 0 < cfg5.N) :
    acc5 V c 0 h0 = contrib5 (iblk5 V c 0 ⟨0, h0⟩) (iblk5 V c 1 ⟨0, h0⟩) (zero5s (F := F)) := rfl

theorem acc5_succ (c : Dev nD) (n : ℕ) (hn : n + 1 < cfg5.N) :
    acc5 V c (n + 1) hn = contrib5 (iblk5 V c 0 ⟨n + 1, hn⟩) (iblk5 V c 1 ⟨n + 1, hn⟩) (acc5 V c n (Nat.lt_of_succ_lt hn)) := rfl

theorem outAt5_last (c : Dev nD) (h4 : 4 < cfg5.N) :
    outAt5 V c 4 h4 = head5 (acc5 V c 4 h4) (iblk5 V c 2 ⟨4, h4⟩) (iblk5 V c 3 ⟨4, h4⟩) (iblk5 V c 4 ⟨4, h4⟩) (iblk5 V c 5 ⟨4, h4⟩) :=
  if_pos rfl

abbrev scM5 : Memref sig .tc .vmem S128x128 .f32 := Memref.whole cc5_scratch0

def inv5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

theorem PhiA5_eq (c : Dev nD) : (Pipeline.ΦA spec5 c : sProp 𝕄) = inv5 c iprop(∃ d, owns (c : Thread nD τ) scM5 fullShare d) := by
  unfold Pipeline.ΦA inv5; rw [scopedRest5_split]; simp only [scM5, owns_whole]; try rfl

def PhiS5 (c : Dev nD) : (n : ℕ) → n ≤ cfg5.N → sProp 𝕄
  | 0, _ => Pipeline.ΦA spec5 c
  | n + 1, hn => inv5 c (owns (c : Thread nD τ) scM5 fullShare (acc5 V c n hn))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => outAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t = outAt5 V c t.val t.isLt := by dsimp only [dat5]

theorem before5 (c : Dev nD) (w : Fin cfg5.W) (hw : w ≠ 6) (t : Fin cfg5.N) (d) : (dat5 V c).before w t d = (dat5 V c).after w t := by
  fin_cases w <;> first | exact absurd rfl hw | exact Dat.before_in_eq_fetched _ _ rfl (fun _ => rfl) (fun _ _ _ => rfl) (fun _ => rfl) t d

theorem leaves5 (c : Dev nD) (w : Fin cfg5.W) (t : Fin cfg5.N) (h : cfg5.idle w (grid5.coords t) = false) :
    (dat5 V c).leavesExact w t = owns (c : Thread nD τ) ((cfg5.win w).stage (cfg5.slots t w)) fullShare ((dat5 V c).after w t) := by
  unfold Dat.leavesExact; rw [h]

-- The rectangle of a whole store is the whole index set.
theorem wholeCover5 {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ (⟨Rect.unit off S.size inb, p⟩ :: L), y ∈ pc.1.set :=
  ⟨_, List.mem_cons_self, View.mem_set_unit_zero h inb y⟩

theorem contrib5_eq (h : Vec F S4000x128 .f32) (b : Vec F S4000x1 .i32) (s : Vec F S128x128 .f32) :
    contrib5 h b s = k5_pay3 (View.ld h r5_h) (View.ld b r5_b) s := by
  unfold contrib5; rw [View.canon_unit_zero hz5, View.ld_unit_zero hz5 _ s]

theorem head5_eq (s : Vec F S128x128 .f32) (w1 : Vec F S128x128 .f32) (b1 : Vec F S1x128 .f32) (w2 : Vec F S128x10 .f32) (b2 : Vec F S1x10 .f32) :
    head5 s w1 b1 w2 b2 = k5_pay4 s (View.ld w1 r5_s) (View.ld b1 r5_b1) (View.ld w2 r5_o) (View.ld b2 r5_b2) := by
  unfold head5; rw [View.canon_unit_zero hz5, View.ld_unit_zero hz5 _ s]

-- One run for every point: the first conditional zeroes, the accumulating store adds the point's contribution, the second conditional stores the head.
theorem run5 (c : Dev nD) (E : Set ℕ) (i : grid5.Coords) (arg1 : Memref sig .tc .vmem S4000x128 .f32) (harg1 : arg1.IsWhole) (arg2 : Memref sig .tc .vmem S4000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x128 .f32) (harg8 : arg8.IsWhole)
    (K : PUnit → sProp 𝕄) (x0 : Vec F S4000x128 .f32) (x1 : Vec F S4000x1 .i32) (x2 : Vec F S128x128 .f32) (x3 : Vec F S1x128 .f32) (x4 : Vec F S128x10 .f32) (x5 : Vec F S1x10 .f32)
    (d7 : Vec F S128x10 .f32) (d8 : Vec F S128x128 .f32) (h : k5_cond1 i = 1#1 → ¬k5_cond2 i = 1#1) :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare d7 ∗ owns c arg8 fullShare d8
        ∗ (iprop(owns c arg1 fullShare x0 ∗ owns c arg2 fullShare x1 ∗ owns c arg3 fullShare x2 ∗ owns c arg4 fullShare x3
            ∗ owns c arg5 fullShare x4 ∗ owns c arg6 fullShare x5
            ∗ owns c arg7 fullShare (if k5_cond2 i = 1#1 then head5 (contrib5 x0 x1 d8) x2 x3 x4 x5 else if k5_cond1 i = 1#1 then zero5o else d7)
            ∗ owns c arg8 fullShare (contrib5 x0 x1 (if k5_cond1 i = 1#1 then zero5s else d8))) -∗ K ⟨⟩))
      ⊢ wp frame (wpE (defs₀ (F := F)) Variants.none c none) E (cc5__pool_head_kernel i arg1 harg1 arg2 harg2 arg3 harg3 arg4 harg4 arg5 harg5 arg6 harg6 arg7 harg7 arg8 harg8) K := by
  simp only [cc5__pool_head_kernel_eq_skeleton]; unfold cc5__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  subst hf0 hf1 hf2 hf3 hf4 hf5 hf7 hf8
  by_cases hc1 : k5_cond1 i = 1#1 <;> by_cases hc2 : k5_cond2 i = 1#1
  · exact absurd hc2 (h hc1)
  all_goals
    sl_exec (disch := first | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H7]
  all_goals
    iexists _; isplitr
    swap; · iassumption
    ipureintro
  · rw [if_neg hc2, if_pos hc1]
    exact View.read_writes_eq_canon _ _ _ (wholeCover5 hz5 _ _ _)
  · rw [if_pos hc1]
    sl_unfold_run_names
    refine (View.read_writes_eq_canon _ _ _ (wholeCover5 hz5 _ _ _)).trans ?_
    rw [View.canon_cons_unit_zero hz5, View.readCov_unit_zero _ hz5, contrib5_eq, zero5s, View.canon_unit_zero hz5]
    rfl
  · rw [if_pos hc2]
    sl_unfold_run_names
    refine (View.read_writes_eq_canon _ _ _ (wholeCover5 hz5 _ _ _)).trans ?_
    rw [View.canon_unit_zero hz5, View.readCov_unit_zero _ hz5, head5_eq, contrib5, View.canon_unit_zero hz5]
    rfl
  · rw [if_neg hc1]
    exact View.read_writes_eq_canon _ _ _ (wholeCover5 hz5 _ _ _)
  · rw [if_neg hc2, if_neg hc1]
  · rw [if_neg hc1]
    exact View.read_writes_eq_canon _ _ _ (wholeCover5 hz5 _ _ _)

theorem hcond5_1 : ∀ t : Fin cfg5.N, k5_cond1 (grid5.coords t) = 1#1 ↔ t.val = 0 := by decide +kernel
theorem hcond5_2 : ∀ t : Fin cfg5.N, k5_cond2 (grid5.coords t) = 1#1 ↔ t.val = 4 := by decide +kernel
theorem excl5 : ∀ t : Fin cfg5.N, k5_cond1 (grid5.coords t) = 1#1 → ¬k5_cond2 (grid5.coords t) = 1#1 := by decide +kernel

theorem live5_6 : ∀ t : Fin cfg5.N, t.val = 0 ∨ t.val = 4 → cfg5.idle 6 (grid5.coords t) = false := by decide +kernel
theorem idle5_6 : ∀ t : Fin cfg5.N, t.val ≠ 0 → t.val ≠ 4 → cfg5.idle 6 (grid5.coords t) = true ∧ (cfg5.win 6).flush t = false := by decide +kernel

theorem body_obligation5 (c : Dev nD) : BodyObligation (dat5 (F := F) V c) (defs₀ (F := F)) Variants.none () Set.univ := fun t => by
  show iprop((dat5 V c).Φ t.castSucc ∗ (dat5 V c).owesAt () t.castSucc
      ∗ bigSep Finset.univ fun w : Fin cfg5.W => iprop(∃ d, owns c ((cfg5.win w).stage (cfg5.slots t w)) fullShare ((dat5 V c).before w t d)))
    ⊢ wp frame (wpE (defs₀ (F := F)) Variants.none c none) Set.univ (bodyAt5 t) fun _ =>
      iprop((dat5 V c).Φ t.succ ∗ (dat5 V c).owesAt () t.succ ∗ bigSep Finset.univ fun w : Fin cfg5.W => (dat5 V c).leavesExact w t)
  rw [bigSep_W5, bigSep_W5, show (dat5 V c).owesAt () t.succ = (dat5 V c).owesAt () t.castSucc from rfl,
    show (dat5 V c).Φ t.succ = inv5 c (owns c scM5 fullShare (acc5 V c t.val t.isLt)) from rfl]
  simp (disch := first | decide | exact rfl) only [before5, leaves5]
  unfold bodyAt5
  have h1 := hcond5_1 t
  have h2 := hcond5_2 t
  have hl := live5_6 t
  have hi := idle5_6 t
  have hx := excl5 t
  obtain ⟨n, hn⟩ := t
  rcases n with _ | n
  on_goal 2 =>
    have hc1 := eq_false fun h => absurd (h1.mp h) (Nat.succ_ne_zero n)
    rw [show (dat5 V c).Φ (Fin.castSucc ⟨n + 1, hn⟩) = inv5 c (owns c scM5 fullShare (acc5 V c n (Nat.lt_of_succ_lt hn))) from rfl]
    by_cases h4 : n = 3
  on_goal 1 =>
    have hc1 := eq_true (h1.mpr rfl)
    have hc2 := eq_false (hx (h1.mpr rfl))
    rw [show (dat5 V c).Φ (Fin.castSucc ⟨0, hn⟩) = _ from PhiA5_eq c, leaves5 V c 6 _ (hl (.inl rfl)), after5_6]
  on_goal 2 =>
    subst h4
    have hc2 := eq_true (h2.mpr rfl)
    rw [leaves5 V c 6 _ (hl (.inr rfl)), after5_6]
  on_goal 3 =>
    have hc2 := eq_false fun h => h4 (Nat.succ.inj (h2.mp h))
    obtain ⟨hi6, hf6⟩ := hi (Nat.succ_ne_zero n) fun h => h4 (Nat.succ.inj h)
    rw [Dat.leavesExact_idle (dat5 V c) 6 _ hi6 hf6]
  all_goals
    unfold inv5
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    try icases HS with ⟨%d8, HS⟩
    iapply (run5 c Set.univ _ _ _ _ _ _ _ _ _ _ _ _ _ _ _ _ _ _ _ _ _ _ _ _ _ _ hx)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    simp only [hc1, hc2, ↓reduceIte]
    iintro ⟨H0, H1, H2, H3, H4, H5, H6, HS⟩
    iframe HR Hg Ho H0 H1 H2 H3 H4 H5
    isplitl [HS]; · iexact HS
    first | iexact H6 | (iexists _; iexact H6)

theorem hin5 (c : Dev nD) : Pipeline.ΦA spec5 c ⊢ (dat5 V c).Φ 0 := Entails.refl _

theorem hout5 (c : Dev nD) : (dat5 V c).Φ (Fin.last cfg5.N) ⊢ Pipeline.ΦA spec5 c := by
  rw [show (dat5 V c).Φ (Fin.last cfg5.N) = inv5 c (owns c scM5 fullShare (acc5 V c 4 (by decide))) from rfl, PhiA5_eq]
  unfold inv5
  iintro ⟨⟨HS, HR⟩, Hg⟩
  iframe HR Hg
  iexists _; iexact HS

end Cert.Kernel.Hand

end
-- ==== Proof.KRun.lean ====
import proofs.«428006_j27865747816548_3_alg».proof.Proof.Gen.Kernel.Regions
import proofs.«428006_j27865747816548_3_alg».proof.Proof.KRunAll
import proofs.«428006_j27865747816548_3_alg».proof.Proof.KA0
import proofs.«428006_j27865747816548_3_alg».proof.Proof.KA1
import proofs.«428006_j27865747816548_3_alg».proof.Proof.KA2
import proofs.«428006_j27865747816548_3_alg».proof.Proof.KA3
import proofs.«428006_j27865747816548_3_alg».proof.Proof.KA4
import proofs.«428006_j27865747816548_3_alg».proof.Proof.KP5
import Idealize.ShloMosaic.Lib.Pipeline.RegionsLoop
import Idealize.ShloMosaic.Lib.Pipeline.FrameSuffix

set_option maxRecDepth 16384

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

-- What a region entered at `V` leaves: each of its arrays at its final contents, every other buffer as entered.
def left {cfg : Cfg sig Λ₀} (d : (c : Dev nD) → Dat τ (Elt F) Unit ℕ (UR sig nD τ) ℕ cfg c) (V : Dev nD → Valuation τ sig (Elt F))
    (c : Dev nD) (r : Ref sig .tc) : Buf (Elt F) ((c : Thread nD τ).loc r) :=
  Pipeline.withArrays cfg.spec c (V c) (fun w => (d c).arrAt w cfg.N) r

-- Region K is entered at contents that depend only on what regions 0..K-1 left, so the outputs are named stage by stage.
def outsA : Gen.Outs (F := F) := fun n r c => match n with
  | 2 => left (dat0 fun c b => Gen.V1 m c b) (Gen.V1 m) c r | _ => Gen.V1 m c r
def outsB : Gen.Outs (F := F) := fun n r c => match n with
  | 4 => left (dat1 fun c b => Gen.V3 m (outsA m) c b) (Gen.V3 m (outsA m)) c r | n => outsA m n r c
def outsC : Gen.Outs (F := F) := fun n r c => match n with
  | 6 => left (dat2 fun c b => Gen.V5 m (outsB m) c b) (Gen.V5 m (outsB m)) c r | n => outsB m n r c
def outsD : Gen.Outs (F := F) := fun n r c => match n with
  | 8 => left (dat3 fun c b => Gen.V7 m (outsC m) c b) (Gen.V7 m (outsC m)) c r | n => outsC m n r c
def outsE : Gen.Outs (F := F) := fun n r c => match n with
  | 10 => left (dat4 fun c b => Gen.V9 m (outsD m) c b) (Gen.V9 m (outsD m)) c r | n => outsD m n r c
def outsF : Gen.Outs (F := F) := fun n r c => match n with
  | 12 => left (dat5 fun c b => Gen.V11 m (outsE m) c b) (Gen.V11 m (outsE m)) c r | n => outsE m n r c
abbrev outs : Gen.Outs (F := F) := outsF m

def pdats : (p : Fin 6) → (c : Dev nD) → Dat τ (Elt F) Unit ℕ (UR sig nD τ) ℕ (cfgs p) c
  | ⟨0, _⟩ => dat0 fun c b => Gen.V1 m c b
  | ⟨1, _⟩ => dat1 fun c b => Gen.V3 m (outs m) c b
  | ⟨2, _⟩ => dat2 fun c b => Gen.V5 m (outs m) c b
  | ⟨3, _⟩ => dat3 fun c b => Gen.V7 m (outs m) c b
  | ⟨4, _⟩ => dat4 fun c b => Gen.V9 m (outs m) c b
  | ⟨5, _⟩ => dat5 fun c b => Gen.V11 m (outs m) c b

theorem left_arr {cfg : Cfg sig Λ₀} (d : (c : Dev nD) → Dat τ (Elt F) Unit ℕ (UR sig nD τ) ℕ cfg c) (V : Dev nD → Valuation τ sig (Elt F))
    (hinj : Function.Injective (Pipeline.arrRef cfg.spec)) (c : Dev nD) (w : Fin cfg.W) :
    left d V c (Pipeline.arrRef cfg.spec w) = (d c).arrAt w cfg.N := Pipeline.withArrays_arr cfg.spec hinj c _ _ w

theorem V2_out (c : Dev nD) : Gen.V2 m (outs m) c main_v36 = (dat0 (fun c b => Gen.V1 m c b) c).arrAt 10 cfg0.N :=
  (Function.update_self _ _ _).trans (left_arr (dat0 fun c b => Gen.V1 m c b) (Gen.V1 m) launch0.win.arr_inj c 10)
theorem V4_out (c : Dev nD) : Gen.V4 m (outs m) c main_v69 = (dat1 (fun c b => Gen.V3 m (outs m) c b) c).arrAt 10 cfg1.N :=
  (Function.update_self _ _ _).trans (left_arr (dat1 fun c b => Gen.V3 m (outs m) c b) (Gen.V3 m (outs m)) launch1.win.arr_inj c 10)
theorem V6_out (c : Dev nD) : Gen.V6 m (outs m) c main_v102 = (dat2 (fun c b => Gen.V5 m (outs m) c b) c).arrAt 10 cfg2.N :=
  (Function.update_self _ _ _).trans (left_arr (dat2 fun c b => Gen.V5 m (outs m) c b) (Gen.V5 m (outs m)) launch2.win.arr_inj c 10)
theorem V8_out (c : Dev nD) : Gen.V8 m (outs m) c main_v135 = (dat3 (fun c b => Gen.V7 m (outs m) c b) c).arrAt 10 cfg3.N :=
  (Function.update_self _ _ _).trans (left_arr (dat3 fun c b => Gen.V7 m (outs m) c b) (Gen.V7 m (outs m)) launch3.win.arr_inj c 10)
theorem V10_out (c : Dev nD) : Gen.V10 m (outs m) c main_v168 = (dat4 (fun c b => Gen.V9 m (outs m) c b) c).arrAt 10 cfg4.N :=
  (Function.update_self _ _ _).trans (left_arr (dat4 fun c b => Gen.V9 m (outs m) c b) (Gen.V9 m (outs m)) launch4.win.arr_inj c 10)
theorem V12_out (c : Dev nD) : Gen.V12 m (outs m) c main_v172 = (dat5 (fun c b => Gen.V11 m (outs m) c b) c).arrAt 6 cfg5.N :=
  (Function.update_self _ _ _).trans (left_arr (dat5 fun c b => Gen.V11 m (outs m) c b) (Gen.V11 m (outs m)) launch5.win.arr_inj c 6)

abbrev runL : GSem nD τ sig → Finset Unit := fun _ => ∅
abbrev runLv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
-- A region entered at `Vin` and left at `Vout`, which differs from `Vin` only at the array of the output window `wo`.
def regOf (p : Fin 6) (L : Pipeline.LaunchFacts (nD := nD) (τ := τ) cfgs p) (wo : Fin (cfgs p).W) (Vin Vout : Dev nD → Valuation τ sig (Elt F))
    (hb : ∀ c, BodyObligation (pdats m p c) (defs₀ (F := F)) Variants.none () Set.univ)
    (hVo : ∀ c, Vout c (Pipeline.arrRef (cfgs p).spec wo) = (pdats m p c).arrAt wo (cfgs p).N)
    (hof : ∀ c (r : Ref sig .tc), r ∉ [Pipeline.arrRef (cfgs p).spec wo] → Vout c r = Vin c r)
    (hΦi : ∀ c, Pipeline.ΦA (cfgs p).spec c ⊢ (pdats m p c).Φ 0 := by exact fun _ => .rfl)
    (hΦo : ∀ c, (pdats m p c).Φ (Fin.last _) ⊢ Pipeline.ΦA (cfgs p).spec c := by exact fun _ => .rfl)
    (hwo : ∀ w, w ≠ wo → ((cfgs p).win w).isOut = false := by decide)
    (hA : ∀ c w, (pdats m p c).A w = Vin c (Pipeline.arrRef (cfgs p).spec w) := by intros; rfl)
    (hq : ∀ c w, (pdats m p c).q w = fullShare := by intros; rfl) (how : ∀ c t, (pdats m p c).owed t = 0 := by intros; rfl)
    (hrec : ∀ c, (pdats m p c).recorded 0 = Set.univ := by intros; rfl) :
    Pipeline.RegionSeg (pcfgs (F := F)) Gen.adm (pdats m) () defs₀ Variants.none runL runLv p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ runL runLv p how
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    unfold Pipeline.Dat.owesAt Pipeline.owesWithin Pipeline.Dat.bound
    rw [Pipeline.ownSems0_none, how c, hrec c]
    have hsplit := Pipeline.arrays_of_unscopedBufs (p := p) (pcfgs (F := F)) Gen.adm (pdats m) L.win L.arr_whole c
      ((pdats m p c).share_full (hq c)) (fun b => Vin c b) (hA c)
    rw [Pipeline.unscopedBufs_held] at hsplit
    iintro ⟨⟨Hub, Hp, ⟨%W, HO⟩⟩, -, -⟩
    ihave H := hsplit $$ Hub
    icases H with ⟨Ha, Hrest⟩
    imodintro
    iframe
    isplitr; · unfold Pipeline.prefHeld; rw [show (Finset.univ : Finset (Fin 0)) = ∅ from rfl, BI.bigSep_empty]; iempintro
    iexists W; iframe
    ipureintro; exact fun _ _ => Or.inl trivial
  hin c := by
    refine .trans ?_ (hΦi c)
    unfold Pipeline.ΦA
    iintro ⟨Hp, -, Hr⟩
    iframe
  hout c := by
    rw [Pipeline.ownSems0_none]
    refine (hΦo c).trans ?_
    unfold Pipeline.ΦA
    iintro ⟨Hr, Hp⟩
    iframe; iempintro
  hexit c := by
    have hF : ∀ w, (pdats m p c).arrAt w (cfgs p).N = Vout c (Pipeline.arrRef (cfgs p).spec w) := fun w => by
      by_cases hw : w = wo
      · subst hw; exact (hVo c).symm
      · exact ((pdats m p c).arrAt_in w (hwo w hw) _).trans
          ((hA c w).trans (hof c _ fun h => hw (L.win.arr_inj (List.mem_singleton.mp h))).symm)
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c)) (fun b => Vin c b) (fun b => Vout c b)
      ((pdats m p c).arrAt · (cfgs p).N) hF fun b hb => hof c b fun h =>
        hb (List.mem_singleton.mp h ▸ Finset.mem_image.mpr ⟨wo, Finset.mem_univ _, rfl⟩)
    rw [Pipeline.unscopedBufs_held] at hjoin
    unfold Pipeline.Dat.owesAt Pipeline.owesWithin
    rw [how c]
    iintro ⟨Ha, ⟨%W, -, HO⟩, HY, Hrest⟩
    imodintro
    isplitl [Ha Hrest]
    · iapply hjoin; iframe
    isplitl [HY]; · iexact HY
    iexists W; iexact HO

def reg0 := regOf m 0 launch0 10 (Gen.V1 m) (Gen.V2 m (outs m)) (body_obligation0 fun c b => Gen.V1 m c b) (V2_out m) (Gen.V2_of m (outs m))
def reg1 := regOf m 1 launch1 10 (Gen.V3 m (outs m)) (Gen.V4 m (outs m)) (body_obligation1 fun c b => Gen.V3 m (outs m) c b) (V4_out m) (Gen.V4_of m (outs m))
def reg2 := regOf m 2 launch2 10 (Gen.V5 m (outs m)) (Gen.V6 m (outs m)) (body_obligation2 fun c b => Gen.V5 m (outs m) c b) (V6_out m) (Gen.V6_of m (outs m))
def reg3 := regOf m 3 launch3 10 (Gen.V7 m (outs m)) (Gen.V8 m (outs m)) (body_obligation3 fun c b => Gen.V7 m (outs m) c b) (V8_out m) (Gen.V8_of m (outs m))
def reg4 := regOf m 4 launch4 10 (Gen.V9 m (outs m)) (Gen.V10 m (outs m)) (body_obligation4 fun c b => Gen.V9 m (outs m) c b) (V10_out m) (Gen.V10_of m (outs m))
def reg5 := regOf m 5 launch5 6 (Gen.V11 m (outs m)) (Gen.V12 m (outs m)) (body_obligation5 fun c b => Gen.V11 m (outs m) c b) (V12_out m) (Gen.V12_of m (outs m)) (hin5 _) (hout5 _)

abbrev u₀ := initOf (Pipeline.cells cfgs cellOf_inj) (Pipeline.launchToks cfgs cellOf_inj)

theorem launch_ghost :
    (ownU u₀ : sProp 𝕄) ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl); iexact Hu
  iapply (show (BI.emp : sProp 𝕄) ⊢ bigSep Finset.univ (fun _ : Dev nD => (BI.emp : sProp 𝕄)) from by rw [BI.bigSep_emp_const])
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts runL runLv)
      ⊢ (|={Set.univ}=> bigSep Finset.univ (fun c : Dev nD => R (F := F) c) : sProp 𝕄) := by
  refine Pipeline.initEach runL runLv fun c => ?_
  iintro ⟨⟨-, HO, -, Hp, -⟩, -⟩
  imodintro
  isplitl [Hp]; · iexists _; iexact Hp
  iexists ∅; iexact HO

theorem rest_owes (c : Dev nD) : R (F := F) c ⊢ (iprop(∃ W, owes (c : Thread nD τ) (0 : CellTallies nD τ sig Unit) W) : sProp 𝕄) := by
  iintro ⟨-, HO⟩; iexact HO

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () Variants.none runL runLv (fun _ _ => rfl) ρ (outs m) (pdats m) 0 (fun _ => iprop(emp)) u₀ launch_ghost
    (fun _ c => R c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V12 m (outs m) c b) :=
  run_cond m emb₁ () Variants.none runL runLv (fun _ _ => rfl) ρ (outs m) (pdats m) 0 (fun _ => iprop(emp)) u₀ launch_ghost
    (fun _ c => R c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)

end Cert.Kernel.Hand

end
-- ==== Proof.KIA0.lean ====
import proofs.«428006_j27865747816548_3_alg».proof.Proof.Gen.KernelIdeal.Launch
import proofs.«428006_j27865747816548_3_alg».proof.Proof.Gen.KernelIdeal.Skeleton
import proofs.«428006_j27865747816548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S2000x128 := Rect.unit (s := S2000x128) ![0, 0] S2000x128.size inb_S2000x128_S2000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

def out0_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r0, k0_pay1 (k0_pay2 (View.ld x0 r0) (View.ld x1 r0) (View.ld x2 rW0) (View.ld x3 rB0) (View.ld x7 rB0) (View.ld x4 rB0) (View.ld x6 rB0) (View.ld x5 rB0) (View.ld x8 rW0)) (View.ld x9 rB0)⟩]

set_option maxHeartbeats 4000000 in
-- The one store covers the output block, so the block read back afterwards is the stored payload.
theorem sound_kernel0 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid0.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out0_10 x0 x1 x2 x3 x4 x5 x6 x7 x8 x9)) -∗ K ⟨⟩))
      ⊢ wp frame (wpE (defs₀ (F := F)) Variants.none c none) E (cc0__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc0__gin_dense_kernel_eq_skeleton]; unfold cc0__gin_dense_kernel_skel
  simp only [k0_part1_eq_skeleton]; unfold k0_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := rfl

theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0 (c : Dev nD) (w : Fin cfg0.W) (hw : w ≠ 10) (t : Fin cfg0.N) (d) : (dat0 V c).before w t d = (dat0 V c).after w t := by
  fin_cases w <;> first | exact absurd rfl hw | exact ((dat0 V c).before_in_eq_fetched _ rfl (fun _ => rfl) (fun _ _ _ => rfl) (fun _ => rfl) t d).trans rfl

theorem body_obligation0 (c : Dev nD) : BodyObligation (dat0 (F := F) V c) (defs₀ (F := F)) Variants.none () Set.univ := fun t => by
  simp (disch := decide) only [bigSep_W0, before0]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel0 c (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.KernelIdeal.Hand
-- ==== Proof.KIA1.lean ====
import proofs.«428006_j27865747816548_3_alg».proof.Proof.Gen.KernelIdeal.Launch
import proofs.«428006_j27865747816548_3_alg».proof.Proof.Gen.KernelIdeal.Skeleton
import proofs.«428006_j27865747816548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1 : Rect S2000x128 := Rect.unit (s := S2000x128) ![0, 0] S2000x128.size inb_S2000x128_S2000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

def out1_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r1, k1_pay1 (k1_pay2 (View.ld x0 r1) (View.ld x1 r1) (View.ld x2 rW1) (View.ld x3 rB1) (View.ld x7 rB1) (View.ld x4 rB1) (View.ld x6 rB1) (View.ld x5 rB1) (View.ld x8 rW1)) (View.ld x9 rB1)⟩]

set_option maxHeartbeats 4000000 in
-- The one store covers the output block, so the block read back afterwards is the stored payload.
theorem sound_kernel1 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid1.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out1_10 x0 x1 x2 x3 x4 x5 x6 x7 x8 x9)) -∗ K ⟨⟩))
      ⊢ wp frame (wpE (defs₀ (F := F)) Variants.none c none) E (cc1__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc1__gin_dense_kernel_eq_skeleton]; unfold cc1__gin_dense_kernel_skel
  simp only [k1_part1_eq_skeleton]; unfold k1_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1 (c : Dev nD) (w : Fin cfg1.W) (hw : w ≠ 10) (t : Fin cfg1.N) (d) : (dat1 V c).before w t d = (dat1 V c).after w t := by
  fin_cases w <;> first | exact absurd rfl hw | exact ((dat1 V c).before_in_eq_fetched _ rfl (fun _ => rfl) (fun _ _ _ => rfl) (fun _ => rfl) t d).trans rfl

theorem body_obligation1 (c : Dev nD) : BodyObligation (dat1 (F := F) V c) (defs₀ (F := F)) Variants.none () Set.univ := fun t => by
  simp (disch := decide) only [bigSep_W1, before1]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel1 c (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.KernelIdeal.Hand
-- ==== Proof.KIA2.lean ====
import proofs.«428006_j27865747816548_3_alg».proof.Proof.Gen.KernelIdeal.Launch
import proofs.«428006_j27865747816548_3_alg».proof.Proof.Gen.KernelIdeal.Skeleton
import proofs.«428006_j27865747816548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2 : Rect S2000x128 := Rect.unit (s := S2000x128) ![0, 0] S2000x128.size inb_S2000x128_S2000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

def out2_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r2, k2_pay1 (k2_pay2 (View.ld x0 r2) (View.ld x1 r2) (View.ld x2 rW2) (View.ld x3 rB2) (View.ld x7 rB2) (View.ld x4 rB2) (View.ld x6 rB2) (View.ld x5 rB2) (View.ld x8 rW2)) (View.ld x9 rB2)⟩]

set_option maxHeartbeats 4000000 in
-- The one store covers the output block, so the block read back afterwards is the stored payload.
theorem sound_kernel2 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid2.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out2_10 x0 x1 x2 x3 x4 x5 x6 x7 x8 x9)) -∗ K ⟨⟩))
      ⊢ wp frame (wpE (defs₀ (F := F)) Variants.none c none) E (cc2__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc2__gin_dense_kernel_eq_skeleton]; unfold cc2__gin_dense_kernel_skel
  simp only [k2_part1_eq_skeleton]; unfold k2_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := rfl

theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2 (c : Dev nD) (w : Fin cfg2.W) (hw : w ≠ 10) (t : Fin cfg2.N) (d) : (dat2 V c).before w t d = (dat2 V c).after w t := by
  fin_cases w <;> first | exact absurd rfl hw | exact ((dat2 V c).before_in_eq_fetched _ rfl (fun _ => rfl) (fun _ _ _ => rfl) (fun _ => rfl) t d).trans rfl

theorem body_obligation2 (c : Dev nD) : BodyObligation (dat2 (F := F) V c) (defs₀ (F := F)) Variants.none () Set.univ := fun t => by
  simp (disch := decide) only [bigSep_W2, before2]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel2 c (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.KernelIdeal.Hand
-- ==== Proof.KIA3.lean ====
import proofs.«428006_j27865747816548_3_alg».proof.Proof.Gen.KernelIdeal.Launch
import proofs.«428006_j27865747816548_3_alg».proof.Proof.Gen.KernelIdeal.Skeleton
import proofs.«428006_j27865747816548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3 : Rect S2000x128 := Rect.unit (s := S2000x128) ![0, 0] S2000x128.size inb_S2000x128_S2000x128_0_0
abbrev rW3 : Rect S128x128 := Rect.unit (s := S128x128) ![0, 0] S128x128.size inb_S128x128_S128x128_0_0
abbrev rB3 : Rect S1x128 := Rect.unit (s := S1x128) ![0, 0] S1x128.size inb_S1x128_S1x128_0_0

def out3_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r3, k3_pay1 (k3_pay2 (View.ld x0 r3) (View.ld x1 r3) (View.ld x2 rW3) (View.ld x3 rB3) (View.ld x7 rB3) (View.ld x4 rB3) (View.ld x6 rB3) (View.ld x5 rB3) (View.ld x8 rW3)) (View.ld x9 rB3)⟩]

set_option maxHeartbeats 4000000 in
-- The one store covers the output block, so the block read back afterwards is the stored payload.
theorem sound_kernel3 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid3.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out3_10 x0 x1 x2 x3 x4 x5 x6 x7 x8 x9)) -∗ K ⟨⟩))
      ⊢ wp frame (wpE (defs₀ (F := F)) Variants.none c none) E (cc3__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc3__gin_dense_kernel_eq_skeleton]; unfold cc3__gin_dense_kernel_skel
  simp only [k3_part1_eq_skeleton]; unfold k3_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t)
  Φ _ := Pipeline.ΦA spec3 c
  q _ := fullShare
  owed _ := 0

theorem A_eq3 (c : Dev nD) (w : Fin cfg3.W) : (dat3 V c).A w = V c (Pipeline.arrRef spec3 w) := rfl

theorem after3_10 (c : Dev nD) (t : Fin cfg3.N) : (dat3 V c).after 10 t = out3_10 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) := by dsimp only [dat3]

theorem before3 (c : Dev nD) (w : Fin cfg3.W) (hw : w ≠ 10) (t : Fin cfg3.N) (d) : (dat3 V c).before w t d = (dat3 V c).after w t := by
  fin_cases w <;> first | exact absurd rfl hw | exact ((dat3 V c).before_in_eq_fetched _ rfl (fun _ => rfl) (fun _ _ _ => rfl) (fun _ => rfl) t d).trans rfl

theorem body_obligation3 (c : Dev nD) : BodyObligation (dat3 (F := F) V c) (defs₀ (F := F)) Variants.none () Set.univ := fun t => by
  simp (disch := decide) only [bigSep_W3, before3]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel3 c (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.KernelIdeal.Hand
-- ==== Proof.KIA4.lean ====
import proofs.«428006_j27865747816548_3_alg».proof.Proof.Gen.KernelIdeal.Launch
import proofs.«428006_j27865747816548_3_alg».proof.Proof.Gen.KernelIdeal.Skeleton
import proofs.«428006_j27865747816548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4 : Rect S2000x128 := Rect.unit (s := S2000x128) ![0, 0] S2000x128.size inb_S2000x128_S2000x128_0_0
abbrev rW4 : Rect S128x128 := Rect.unit (s := S128x128) ![0, 0] S128x128.size inb_S128x128_S128x128_0_0
abbrev rB4 : Rect S1x128 := Rect.unit (s := S1x128) ![0, 0] S1x128.size inb_S1x128_S1x128_0_0

def out4_10 (x0 x1 : Vec F S2000x128 .f32) (x2 : Vec F S128x128 .f32) (x3 x4 x5 x6 x7 : Vec F S1x128 .f32) (x8 : Vec F S128x128 .f32) (x9 : Vec F S1x128 .f32) : Vec F S2000x128 .f32 :=
  View.canon [⟨r4, k4_pay1 (k4_pay2 (View.ld x0 r4) (View.ld x1 r4) (View.ld x2 rW4) (View.ld x3 rB4) (View.ld x7 rB4) (View.ld x4 rB4) (View.ld x6 rB4) (View.ld x5 rB4) (View.ld x8 rW4)) (View.ld x9 rB4)⟩]

set_option maxHeartbeats 4000000 in
-- The one store covers the output block, so the block read back afterwards is the stored payload.
theorem sound_kernel4 (c : Dev nD) (x0 x1 : Vec F S2000x128 .f32) (x2 : Vec F S128x128 .f32) (x3 x4 x5 x6 x7 : Vec F S1x128 .f32) (x8 : Vec F S128x128 .f32) (x9 : Vec F S1x128 .f32)
    {E : Set ℕ} {i : grid4.Coords} {arg0 arg1 arg10 : Memref sig .tc .vmem S2000x128 .f32} {arg2 arg8 : Memref sig .tc .vmem S128x128 .f32} {arg3 arg4 arg5 arg6 arg7 arg9 : Memref sig .tc .vmem S1x128 .f32}
    {harg0 : arg0.IsWhole} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole}
    {K : PUnit → sProp 𝕄} {P : sProp 𝕄}
    (hP : P = iprop(owns c arg0 fullShare x0 ∗ owns c arg1 fullShare x1 ∗ owns c arg2 fullShare x2 ∗ owns c arg3 fullShare x3 ∗ owns c arg4 fullShare x4 ∗ owns c arg5 fullShare x5 ∗ owns c arg6 fullShare x6 ∗ owns c arg7 fullShare x7 ∗ owns c arg8 fullShare x8 ∗ owns c arg9 fullShare x9)) :
    iprop(P ∗ (∃ d, owns c arg10 fullShare d) ∗ ((P ∗ owns c arg10 fullShare (out4_10 x0 x1 x2 x3 x4 x5 x6 x7 x8 x9)) -∗ K ⟨⟩))
      ⊢ wp frame (wpE (defs₀ (F := F)) Variants.none c none) E (cc4__gin_dense_kernel i arg0 harg0 arg1 harg1 arg2 harg2 arg3 harg3 arg4 harg4 arg5 harg5 arg6 harg6 arg7 harg7 arg8 harg8 arg9 harg9 arg10 harg10) K := by
  nth_rewrite 1 [hP]
  simp only [cc4__gin_dense_kernel_eq_skeleton]; unfold cc4__gin_dense_kernel_skel
  simp only [k4_part1_eq_skeleton]; unfold k4_part1_skel
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, Hk⟩
  subst hf0 hf1 hf2 hf3 hf4 hf5 hf6 hf7 hf8 hf9
  sl_exec
  sl_step
  iapply Hk
  isplitr [H10]
  · rw [hP]
    isplitl [H0]; · iapply owns_intro $$ H0
    isplitl [H1]; · iapply owns_intro $$ H1
    isplitl [H2]; · iapply owns_intro $$ H2
    isplitl [H3]; · iapply owns_intro $$ H3
    isplitl [H4]; · iapply owns_intro $$ H4
    isplitl [H5]; · iapply owns_intro $$ H5
    isplitl [H6]; · iapply owns_intro $$ H6
    isplitl [H7]; · iapply owns_intro $$ H7
    isplitl [H8]; · iapply owns_intro $$ H8
    iapply owns_intro $$ H9
  iexists _; isplitr
  swap; · iexact H10
  ipureintro
  exact View.read_writes_eq_canon _ _ _ (View.cover_of_tiled _ S2000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t)
  Φ _ := Pipeline.ΦA spec4 c
  q _ := fullShare
  owed _ := 0

theorem A_eq4 (c : Dev nD) (w : Fin cfg4.W) : (dat4 V c).A w = V c (Pipeline.arrRef spec4 w) := rfl

theorem after4_10 (c : Dev nD) (t : Fin cfg4.N) : (dat4 V c).after 10 t = out4_10 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) := by dsimp only [dat4]

theorem before4 (c : Dev nD) (w : Fin cfg4.W) (hw : w ≠ 10) (t : Fin cfg4.N) (d) : (dat4 V c).before w t d = (dat4 V c).after w t := by
  fin_cases w <;> first | exact absurd rfl hw | exact ((dat4 V c).before_in_eq_fetched _ rfl (fun _ => rfl) (fun _ _ _ => rfl) (fun _ => rfl) t d).trans rfl

theorem body_obligation4 (c : Dev nD) : BodyObligation (dat4 (F := F) V c) (defs₀ (F := F)) Variants.none () Set.univ := fun t => by
  simp (disch := decide) only [bigSep_W4, before4]
  dsimp only [dat4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply sound_kernel4 c (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) rfl
  iframe H0 H1 H2 H3 H4 H5 H6 H7 H8 H9
  isplitl [H10]; · iexists _; iexact H10
  iintro ⟨⟨H0, H1, H2, H3, H4, H5, H6, H7, H8, H9⟩, H10⟩
  iframe; iexact Ho

end Cert.KernelIdeal.Hand
-- ==== Proof.KIP5.lean ====
import proofs.«428006_j27865747816548_3_alg».proof.Proof.Gen.KernelIdeal.Launch
import proofs.«428006_j27865747816548_3_alg».proof.Proof.Gen.KernelIdeal.Skeleton
import proofs.«428006_j27865747816548_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_s : Rect S128x128 := Rect.unit (s := S128x128) ![0, 0] S128x128.size inb_S128x128_S128x128_0_0
abbrev r5_o : Rect S128x10 := Rect.unit (s := S128x10) ![0, 0] S128x10.size inb_S128x10_S128x10_0_0
abbrev r5_h : Rect S4000x128 := Rect.unit (s := S4000x128) ![0, 0] S4000x128.size inb_S4000x128_S4000x128_0_0
abbrev r5_b : Rect S4000x1 := Rect.unit (s := S4000x1) ![0, 0] S4000x1.size inb_S4000x1_S4000x1_0_0
abbrev r5_b1 : Rect S1x128 := Rect.unit (s := S1x128) ![0, 0] S1x128.size inb_S1x128_S1x128_0_0
abbrev r5_b2 : Rect S1x10 := Rect.unit (s := S1x10) ![0, 0] S1x10.size inb_S1x10_S1x10_0_0

theorem hz5 : (![0, 0] : Fin 2 → Nat) = fun _ => 0 := by
  funext i; fin_cases i <;> rfl

def zero5s : Vec F S128x128 .f32 := View.canon [⟨r5_s, k5_pay1 (F := F)⟩]

def zero5o : Vec F S128x10 .f32 := View.canon [⟨r5_o, k5_pay2 (F := F)⟩]

def contrib5 (h : Vec F S4000x128 .f32) (b : Vec F S4000x1 .i32) (s : Vec F S128x128 .f32) : Vec F S128x128 .f32 :=
  View.canon [⟨r5_s, k5_pay3 (View.ld h r5_h) (View.ld b r5_b) (View.ld s r5_s)⟩]

def head5 (s : Vec F S128x128 .f32) (w1 : Vec F S128x128 .f32) (b1 : Vec F S1x128 .f32) (w2 : Vec F S128x10 .f32) (b2 : Vec F S1x10 .f32) : Vec F S128x10 .f32 :=
  View.canon [⟨r5_o, k5_pay4 (View.ld s r5_s) (View.ld w1 r5_s) (View.ld b1 r5_b1) (View.ld w2 r5_o) (View.ld b2 r5_b2)⟩]

def acc5 (c : Dev nD) : (n : ℕ) → n < cfg5.N → Vec F S128x128 .f32
  | 0, hn => contrib5 (iblk5 V c 0 ⟨0, hn⟩) (iblk5 V c 1 ⟨0, hn⟩) (zero5s (F := F))
  | n + 1, hn => contrib5 (iblk5 V c 0 ⟨n + 1, hn⟩) (iblk5 V c 1 ⟨n + 1, hn⟩) (acc5 c n (Nat.lt_of_succ_lt hn))

def outAt5 (c : Dev nD) : (n : ℕ) → n < cfg5.N → Vec F S128x10 .f32
  | 0, _ => zero5o (F := F)
  | n + 1, hn =>
    if n + 1 = 4 then
      head5 (acc5 V c (n + 1) hn) (iblk5 V c 2 ⟨n + 1, hn⟩) (iblk5 V c 3 ⟨n + 1, hn⟩) (iblk5 V c 4 ⟨n + 1, hn⟩) (iblk5 V c 5 ⟨n + 1, hn⟩)
    else outAt5 c n (Nat.lt_of_succ_lt hn)

theorem acc5_zero (c : Dev nD) (h0 : 0 < cfg5.N) :
    acc5 V c 0 h0 = contrib5 (iblk5 V c 0 ⟨0, h0⟩) (iblk5 V c 1 ⟨0, h0⟩) (zero5s (F := F)) := rfl

theorem acc5_succ (c : Dev nD) (n : ℕ) (hn : n + 1 < cfg5.N) :
    acc5 V c (n + 1) hn = contrib5 (iblk5 V c 0 ⟨n + 1, hn⟩) (iblk5 V c 1 ⟨n + 1, hn⟩) (acc5 V c n (Nat.lt_of_succ_lt hn)) := rfl

theorem outAt5_last (c : Dev nD) (h4 : 4 < cfg5.N) :
    outAt5 V c 4 h4 = head5 (acc5 V c 4 h4) (iblk5 V c 2 ⟨4, h4⟩) (iblk5 V c 3 ⟨4, h4⟩) (iblk5 V c 4 ⟨4, h4⟩) (iblk5 V c 5 ⟨4, h4⟩) :=
  if_pos rfl

abbrev scM5 : Memref sig .tc .vmem S128x128 .f32 := Memref.whole cc5_scratch0

def inv5 (c : Dev nD) (P : sProp 𝕄) : sProp 𝕄 :=
  iprop(iprop(P ∗ Pipeline.scopedRestBut (Ix := Unit) (Name := ℕ) (U := UR sig nD τ) (Lvl := ℕ) (Val := Elt F) spec5 c [cc5_scratch0]) ∗ (∃ r, prngReg c r))

theorem PhiA5_eq (c : Dev nD) : (Pipeline.ΦA spec5 c : sProp 𝕄) = inv5 c iprop(∃ d, owns (c : Thread nD τ) scM5 fullShare d) := by
  unfold Pipeline.ΦA inv5; rw [scopedRest5_split]; simp only [scM5, owns_whole]; try rfl

def PhiS5 (c : Dev nD) : (n : ℕ) → n ≤ cfg5.N → sProp 𝕄
  | 0, _ => Pipeline.ΦA spec5 c
  | n + 1, hn => inv5 c (owns (c : Thread nD τ) scM5 fullShare (acc5 V c n hn))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => outAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_6 (c : Dev nD) (t : Fin cfg5.N) : (dat5 V c).after 6 t = outAt5 V c t.val t.isLt := by dsimp only [dat5]

theorem before5 (c : Dev nD) (w : Fin cfg5.W) (hw : w ≠ 6) (t : Fin cfg5.N) (d) : (dat5 V c).before w t d = (dat5 V c).after w t := by
  fin_cases w <;> first | exact absurd rfl hw | exact Dat.before_in_eq_fetched _ _ rfl (fun _ => rfl) (fun _ _ _ => rfl) (fun _ => rfl) t d

theorem leaves5 (c : Dev nD) (w : Fin cfg5.W) (t : Fin cfg5.N) (h : cfg5.idle w (grid5.coords t) = false) :
    (dat5 V c).leavesExact w t = owns (c : Thread nD τ) ((cfg5.win w).stage (cfg5.slots t w)) fullShare ((dat5 V c).after w t) := by
  unfold Dat.leavesExact; rw [h]

-- The rectangle of a whole store is the whole index set.
theorem wholeCover5 {S : Shape} {e : EltTy} {off : Fin S.rank → Nat} (h : off = fun _ => 0) (inb : ∀ a, off a + S.size a ≤ S.size a)
    (p : S.Idx → Elt F e) (L : List (View.Piece (Elt F) S e)) (y : S.Idx) :
    ∃ pc ∈ (⟨Rect.unit off S.size inb, p⟩ :: L), y ∈ pc.1.set :=
  ⟨_, List.mem_cons_self, View.mem_set_unit_zero h inb y⟩

theorem contrib5_eq (h : Vec F S4000x128 .f32) (b : Vec F S4000x1 .i32) (s : Vec F S128x128 .f32) :
    contrib5 h b s = k5_pay3 (View.ld h r5_h) (View.ld b r5_b) s := by
  unfold contrib5; rw [View.canon_unit_zero hz5, View.ld_unit_zero hz5 _ s]

theorem head5_eq (s : Vec F S128x128 .f32) (w1 : Vec F S128x128 .f32) (b1 : Vec F S1x128 .f32) (w2 : Vec F S128x10 .f32) (b2 : Vec F S1x10 .f32) :
    head5 s w1 b1 w2 b2 = k5_pay4 s (View.ld w1 r5_s) (View.ld b1 r5_b1) (View.ld w2 r5_o) (View.ld b2 r5_b2) := by
  unfold head5; rw [View.canon_unit_zero hz5, View.ld_unit_zero hz5 _ s]

-- One run for every point: the first conditional zeroes, the accumulating store adds the point's contribution, the second conditional stores the head.
theorem run5 (c : Dev nD) (E : Set ℕ) (i : grid5.Coords) (arg1 : Memref sig .tc .vmem S4000x128 .f32) (harg1 : arg1.IsWhole) (arg2 : Memref sig .tc .vmem S4000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x10 .f32) (harg5 : arg5.IsWhole) (arg6 : Memref sig .tc .vmem S1x10 .f32) (harg6 : arg6.IsWhole) (arg7 : Memref sig .tc .vmem S128x10 .f32) (harg7 : arg7.IsWhole) (arg8 : Memref sig .tc .vmem S128x128 .f32) (harg8 : arg8.IsWhole)
    (K : PUnit → sProp 𝕄) (x0 : Vec F S4000x128 .f32) (x1 : Vec F S4000x1 .i32) (x2 : Vec F S128x128 .f32) (x3 : Vec F S1x128 .f32) (x4 : Vec F S128x10 .f32) (x5 : Vec F S1x10 .f32)
    (d7 : Vec F S128x10 .f32) (d8 : Vec F S128x128 .f32) (h : k5_cond1 i = 1#1 → ¬k5_cond2 i = 1#1) :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare d7 ∗ owns c arg8 fullShare d8
        ∗ (iprop(owns c arg1 fullShare x0 ∗ owns c arg2 fullShare x1 ∗ owns c arg3 fullShare x2 ∗ owns c arg4 fullShare x3
            ∗ owns c arg5 fullShare x4 ∗ owns c arg6 fullShare x5
            ∗ owns c arg7 fullShare (if k5_cond2 i = 1#1 then head5 (contrib5 x0 x1 d8) x2 x3 x4 x5 else if k5_cond1 i = 1#1 then zero5o else d7)
            ∗ owns c arg8 fullShare (contrib5 x0 x1 (if k5_cond1 i = 1#1 then zero5s else d8))) -∗ K ⟨⟩))
      ⊢ wp frame (wpE (defs₀ (F := F)) Variants.none c none) E (cc5__pool_head_kernel i arg1 harg1 arg2 harg2 arg3 harg3 arg4 harg4 arg5 harg5 arg6 harg6 arg7 harg7 arg8 harg8) K := by
  simp only [cc5__pool_head_kernel_eq_skeleton]; unfold cc5__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, Hk⟩
  subst hf0 hf1 hf2 hf3 hf4 hf5 hf7 hf8
  by_cases hc1 : k5_cond1 i = 1#1 <;> by_cases hc2 : k5_cond2 i = 1#1
  · exact absurd hc2 (h hc1)
  all_goals
    sl_exec (disch := first | exact hc1 | exact hc2)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H7]
  all_goals
    iexists _; isplitr
    swap; · iassumption
    ipureintro
  · rw [if_neg hc2, if_pos hc1]
    exact View.read_writes_eq_canon _ _ _ (wholeCover5 hz5 _ _ _)
  · rw [if_pos hc1]
    sl_unfold_run_names
    refine (View.read_writes_eq_canon _ _ _ (wholeCover5 hz5 _ _ _)).trans ?_
    rw [View.canon_cons_unit_zero hz5, View.readCov_unit_zero _ hz5, contrib5_eq, zero5s, View.canon_unit_zero hz5]
    rfl
  · rw [if_pos hc2]
    sl_unfold_run_names
    refine (View.read_writes_eq_canon _ _ _ (wholeCover5 hz5 _ _ _)).trans ?_
    rw [View.canon_unit_zero hz5, View.readCov_unit_zero _ hz5, head5_eq, contrib5, View.canon_unit_zero hz5]
    rfl
  · rw [if_neg hc1]
    exact View.read_writes_eq_canon _ _ _ (wholeCover5 hz5 _ _ _)
  · rw [if_neg hc2, if_neg hc1]
  · rw [if_neg hc1]
    exact View.read_writes_eq_canon _ _ _ (wholeCover5 hz5 _ _ _)

theorem hcond5_1 : ∀ t : Fin cfg5.N, k5_cond1 (grid5.coords t) = 1#1 ↔ t.val = 0 := by decide +kernel
theorem hcond5_2 : ∀ t : Fin cfg5.N, k5_cond2 (grid5.coords t) = 1#1 ↔ t.val = 4 := by decide +kernel
theorem excl5 : ∀ t : Fin cfg5.N, k5_cond1 (grid5.coords t) = 1#1 → ¬k5_cond2 (grid5.coords t) = 1#1 := by decide +kernel

theorem live5_6 : ∀ t : Fin cfg5.N, t.val = 0 ∨ t.val = 4 → cfg5.idle 6 (grid5.coords t) = false := by decide +kernel
theorem idle5_6 : ∀ t : Fin cfg5.N, t.val ≠ 0 → t.val ≠ 4 → cfg5.idle 6 (grid5.coords t) = true ∧ (cfg5.win 6).flush t = false := by decide +kernel

theorem body_obligation5 (c : Dev nD) : BodyObligation (dat5 (F := F) V c) (defs₀ (F := F)) Variants.none () Set.univ := fun t => by
  show iprop((dat5 V c).Φ t.castSucc ∗ (dat5 V c).owesAt () t.castSucc
      ∗ bigSep Finset.univ fun w : Fin cfg5.W => iprop(∃ d, owns c ((cfg5.win w).stage (cfg5.slots t w)) fullShare ((dat5 V c).before w t d)))
    ⊢ wp frame (wpE (defs₀ (F := F)) Variants.none c none) Set.univ (bodyAt5 t) fun _ =>
      iprop((dat5 V c).Φ t.succ ∗ (dat5 V c).owesAt () t.succ ∗ bigSep Finset.univ fun w : Fin cfg5.W => (dat5 V c).leavesExact w t)
  rw [bigSep_W5, bigSep_W5, show (dat5 V c).owesAt () t.succ = (dat5 V c).owesAt () t.castSucc from rfl,
    show (dat5 V c).Φ t.succ = inv5 c (owns c scM5 fullShare (acc5 V c t.val t.isLt)) from rfl]
  simp (disch := first | decide | exact rfl) only [before5, leaves5]
  unfold bodyAt5
  have h1 := hcond5_1 t
  have h2 := hcond5_2 t
  have hl := live5_6 t
  have hi := idle5_6 t
  have hx := excl5 t
  obtain ⟨n, hn⟩ := t
  rcases n with _ | n
  on_goal 2 =>
    have hc1 := eq_false fun h => absurd (h1.mp h) (Nat.succ_ne_zero n)
    rw [show (dat5 V c).Φ (Fin.castSucc ⟨n + 1, hn⟩) = inv5 c (owns c scM5 fullShare (acc5 V c n (Nat.lt_of_succ_lt hn))) from rfl]
    by_cases h4 : n = 3
  on_goal 1 =>
    have hc1 := eq_true (h1.mpr rfl)
    have hc2 := eq_false (hx (h1.mpr rfl))
    rw [show (dat5 V c).Φ (Fin.castSucc ⟨0, hn⟩) = _ from PhiA5_eq c, leaves5 V c 6 _ (hl (.inl rfl)), after5_6]
  on_goal 2 =>
    subst h4
    have hc2 := eq_true (h2.mpr rfl)
    rw [leaves5 V c 6 _ (hl (.inr rfl)), after5_6]
  on_goal 3 =>
    have hc2 := eq_false fun h => h4 (Nat.succ.inj (h2.mp h))
    obtain ⟨hi6, hf6⟩ := hi (Nat.succ_ne_zero n) fun h => h4 (Nat.succ.inj h)
    rw [Dat.leavesExact_idle (dat5 V c) 6 _ hi6 hf6]
  all_goals
    unfold inv5
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    try icases HS with ⟨%d8, HS⟩
    iapply (run5 c Set.univ _ _ _ _ _ _ _ _ _ _ _ _ _ _ _ _ _ _ _ _ _ _ _ _ _ _ hx)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    simp only [hc1, hc2, ↓reduceIte]
    iintro ⟨H0, H1, H2, H3, H4, H5, H6, HS⟩
    iframe HR Hg Ho H0 H1 H2 H3 H4 H5
    isplitl [HS]; · iexact HS
    first | iexact H6 | (iexists _; iexact H6)

theorem hin5 (c : Dev nD) : Pipeline.ΦA spec5 c ⊢ (dat5 V c).Φ 0 := Entails.refl _

theorem hout5 (c : Dev nD) : (dat5 V c).Φ (Fin.last cfg5.N) ⊢ Pipeline.ΦA spec5 c := by
  rw [show (dat5 V c).Φ (Fin.last cfg5.N) = inv5 c (owns c scM5 fullShare (acc5 V c 4 (by decide))) from rfl, PhiA5_eq]
  unfold inv5
  iintro ⟨⟨HS, HR⟩, Hg⟩
  iframe HR Hg
  iexists _; iexact HS

end Cert.KernelIdeal.Hand

end
-- ==== Proof.KIRun.lean ====
import proofs.«428006_j27865747816548_3_alg».proof.Proof.Gen.KernelIdeal.Regions
import proofs.«428006_j27865747816548_3_alg».proof.Proof.KIRunAll
import proofs.«428006_j27865747816548_3_alg».proof.Proof.KIA0
import proofs.«428006_j27865747816548_3_alg».proof.Proof.KIA1
import proofs.«428006_j27865747816548_3_alg».proof.Proof.KIA2
import proofs.«428006_j27865747816548_3_alg».proof.Proof.KIA3
import proofs.«428006_j27865747816548_3_alg».proof.Proof.KIA4
import proofs.«428006_j27865747816548_3_alg».proof.Proof.KIP5
import Idealize.ShloMosaic.Lib.Pipeline.RegionsLoop
import Idealize.ShloMosaic.Lib.Pipeline.FrameSuffix

set_option maxRecDepth 16384

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Rounds
open Idealize.ShloMosaic.Pipeline (Dat Cfg BodyObligation)

variable {F : FTy → Type} [FloatOps F]

local notation "𝕄" => MT nD τ sig Unit (Elt F) ℕ (UR sig nD τ) ℕ

variable (m : (ℓ : Loc nD τ sig) → Buf (Elt F) ℓ)

-- What a region entered at `V` leaves: each of its arrays at its final contents, every other buffer as entered.
def left {cfg : Cfg sig Λ₀} (d : (c : Dev nD) → Dat τ (Elt F) Unit ℕ (UR sig nD τ) ℕ cfg c) (V : Dev nD → Valuation τ sig (Elt F))
    (c : Dev nD) (r : Ref sig .tc) : Buf (Elt F) ((c : Thread nD τ).loc r) :=
  Pipeline.withArrays cfg.spec c (V c) (fun w => (d c).arrAt w cfg.N) r

-- Region K is entered at contents that depend only on what regions 0..K-1 left, so the outputs are named stage by stage.
def outsA : Gen.Outs (F := F) := fun n r c => match n with
  | 2 => left (dat0 fun c b => Gen.V1 m c b) (Gen.V1 m) c r | _ => Gen.V1 m c r
def outsB : Gen.Outs (F := F) := fun n r c => match n with
  | 4 => left (dat1 fun c b => Gen.V3 m (outsA m) c b) (Gen.V3 m (outsA m)) c r | n => outsA m n r c
def outsC : Gen.Outs (F := F) := fun n r c => match n with
  | 6 => left (dat2 fun c b => Gen.V5 m (outsB m) c b) (Gen.V5 m (outsB m)) c r | n => outsB m n r c
def outsD : Gen.Outs (F := F) := fun n r c => match n with
  | 8 => left (dat3 fun c b => Gen.V7 m (outsC m) c b) (Gen.V7 m (outsC m)) c r | n => outsC m n r c
def outsE : Gen.Outs (F := F) := fun n r c => match n with
  | 10 => left (dat4 fun c b => Gen.V9 m (outsD m) c b) (Gen.V9 m (outsD m)) c r | n => outsD m n r c
def outsF : Gen.Outs (F := F) := fun n r c => match n with
  | 12 => left (dat5 fun c b => Gen.V11 m (outsE m) c b) (Gen.V11 m (outsE m)) c r | n => outsE m n r c
abbrev outs : Gen.Outs (F := F) := outsF m

def pdats : (p : Fin 6) → (c : Dev nD) → Dat τ (Elt F) Unit ℕ (UR sig nD τ) ℕ (cfgs p) c
  | ⟨0, _⟩ => dat0 fun c b => Gen.V1 m c b
  | ⟨1, _⟩ => dat1 fun c b => Gen.V3 m (outs m) c b
  | ⟨2, _⟩ => dat2 fun c b => Gen.V5 m (outs m) c b
  | ⟨3, _⟩ => dat3 fun c b => Gen.V7 m (outs m) c b
  | ⟨4, _⟩ => dat4 fun c b => Gen.V9 m (outs m) c b
  | ⟨5, _⟩ => dat5 fun c b => Gen.V11 m (outs m) c b

theorem left_arr {cfg : Cfg sig Λ₀} (d : (c : Dev nD) → Dat τ (Elt F) Unit ℕ (UR sig nD τ) ℕ cfg c) (V : Dev nD → Valuation τ sig (Elt F))
    (hinj : Function.Injective (Pipeline.arrRef cfg.spec)) (c : Dev nD) (w : Fin cfg.W) :
    left d V c (Pipeline.arrRef cfg.spec w) = (d c).arrAt w cfg.N := Pipeline.withArrays_arr cfg.spec hinj c _ _ w

theorem V2_out (c : Dev nD) : Gen.V2 m (outs m) c main_v36 = (dat0 (fun c b => Gen.V1 m c b) c).arrAt 10 cfg0.N :=
  (Function.update_self _ _ _).trans (left_arr (dat0 fun c b => Gen.V1 m c b) (Gen.V1 m) launch0.win.arr_inj c 10)
theorem V4_out (c : Dev nD) : Gen.V4 m (outs m) c main_v69 = (dat1 (fun c b => Gen.V3 m (outs m) c b) c).arrAt 10 cfg1.N :=
  (Function.update_self _ _ _).trans (left_arr (dat1 fun c b => Gen.V3 m (outs m) c b) (Gen.V3 m (outs m)) launch1.win.arr_inj c 10)
theorem V6_out (c : Dev nD) : Gen.V6 m (outs m) c main_v102 = (dat2 (fun c b => Gen.V5 m (outs m) c b) c).arrAt 10 cfg2.N :=
  (Function.update_self _ _ _).trans (left_arr (dat2 fun c b => Gen.V5 m (outs m) c b) (Gen.V5 m (outs m)) launch2.win.arr_inj c 10)
theorem V8_out (c : Dev nD) : Gen.V8 m (outs m) c main_v135 = (dat3 (fun c b => Gen.V7 m (outs m) c b) c).arrAt 10 cfg3.N :=
  (Function.update_self _ _ _).trans (left_arr (dat3 fun c b => Gen.V7 m (outs m) c b) (Gen.V7 m (outs m)) launch3.win.arr_inj c 10)
theorem V10_out (c : Dev nD) : Gen.V10 m (outs m) c main_v168 = (dat4 (fun c b => Gen.V9 m (outs m) c b) c).arrAt 10 cfg4.N :=
  (Function.update_self _ _ _).trans (left_arr (dat4 fun c b => Gen.V9 m (outs m) c b) (Gen.V9 m (outs m)) launch4.win.arr_inj c 10)
theorem V12_out (c : Dev nD) : Gen.V12 m (outs m) c main_v172 = (dat5 (fun c b => Gen.V11 m (outs m) c b) c).arrAt 6 cfg5.N :=
  (Function.update_self _ _ _).trans (left_arr (dat5 fun c b => Gen.V11 m (outs m) c b) (Gen.V11 m (outs m)) launch5.win.arr_inj c 6)

abbrev runL : GSem nD τ sig → Finset Unit := fun _ => ∅
abbrev runLv : GSem nD τ sig → Unit → ℕ := fun _ _ => 0
abbrev R (c : Dev nD) : sProp 𝕄 := iprop((∃ r, prngReg c r) ∗ ∃ W, owes (c : Thread nD τ) (0 : CellTallies nD τ sig Unit) W)

set_option backward.isDefEq.respectTransparency.types false in
-- A region entered at `Vin` and left at `Vout`, which differs from `Vin` only at the array of the output window `wo`.
def regOf (p : Fin 6) (L : Pipeline.LaunchFacts (nD := nD) (τ := τ) cfgs p) (wo : Fin (cfgs p).W) (Vin Vout : Dev nD → Valuation τ sig (Elt F))
    (hb : ∀ c, BodyObligation (pdats m p c) (defs₀ (F := F)) Variants.none () Set.univ)
    (hVo : ∀ c, Vout c (Pipeline.arrRef (cfgs p).spec wo) = (pdats m p c).arrAt wo (cfgs p).N)
    (hof : ∀ c (r : Ref sig .tc), r ∉ [Pipeline.arrRef (cfgs p).spec wo] → Vout c r = Vin c r)
    (hΦi : ∀ c, Pipeline.ΦA (cfgs p).spec c ⊢ (pdats m p c).Φ 0 := by exact fun _ => .rfl)
    (hΦo : ∀ c, (pdats m p c).Φ (Fin.last _) ⊢ Pipeline.ΦA (cfgs p).spec c := by exact fun _ => .rfl)
    (hwo : ∀ w, w ≠ wo → ((cfgs p).win w).isOut = false := by decide)
    (hA : ∀ c w, (pdats m p c).A w = Vin c (Pipeline.arrRef (cfgs p).spec w) := by intros; rfl)
    (hq : ∀ c w, (pdats m p c).q w = fullShare := by intros; rfl) (how : ∀ c t, (pdats m p c).owed t = 0 := by intros; rfl)
    (hrec : ∀ c, (pdats m p c).recorded 0 = Set.univ := by intros; rfl) :
    Pipeline.RegionSeg (pcfgs (F := F)) Gen.adm (pdats m) () defs₀ Variants.none runL runLv p where
  win := L.win.to₀
  block_pos := L.block_pos
  stage_whole := L.stage_whole
  K := PEmpty
  osem k := k.elim
  ho := Pipeline.OwnSemFacts.none _
  hbody c := (hb c).loose
  hwaits := Pipeline.hwaits_of_owed_zero _ _ _ _ runL runLv p how
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    unfold Pipeline.Dat.owesAt Pipeline.owesWithin Pipeline.Dat.bound
    rw [Pipeline.ownSems0_none, how c, hrec c]
    have hsplit := Pipeline.arrays_of_unscopedBufs (p := p) (pcfgs (F := F)) Gen.adm (pdats m) L.win L.arr_whole c
      ((pdats m p c).share_full (hq c)) (fun b => Vin c b) (hA c)
    rw [Pipeline.unscopedBufs_held] at hsplit
    iintro ⟨⟨Hub, Hp, ⟨%W, HO⟩⟩, -, -⟩
    ihave H := hsplit $$ Hub
    icases H with ⟨Ha, Hrest⟩
    imodintro
    iframe
    isplitr; · unfold Pipeline.prefHeld; rw [show (Finset.univ : Finset (Fin 0)) = ∅ from rfl, BI.bigSep_empty]; iempintro
    iexists W; iframe
    ipureintro; exact fun _ _ => Or.inl trivial
  hin c := by
    refine .trans ?_ (hΦi c)
    unfold Pipeline.ΦA
    iintro ⟨Hp, -, Hr⟩
    iframe
  hout c := by
    rw [Pipeline.ownSems0_none]
    refine (hΦo c).trans ?_
    unfold Pipeline.ΦA
    iintro ⟨Hr, Hp⟩
    iframe; iempintro
  hexit c := by
    have hF : ∀ w, (pdats m p c).arrAt w (cfgs p).N = Vout c (Pipeline.arrRef (cfgs p).spec w) := fun w => by
      by_cases hw : w = wo
      · subst hw; exact (hVo c).symm
      · exact ((pdats m p c).arrAt_in w (hwo w hw) _).trans
          ((hA c w).trans (hof c _ fun h => hw (L.win.arr_inj (List.mem_singleton.mp h))).symm)
    have hjoin := Pipeline.unscopedBufs_of_arrays (p := p) (pcfgs (F := F)) Gen.adm (Ix := Unit) (Name := ℕ) (U := UR sig nD τ) (Lvl := ℕ)
      L.win L.arr_whole c (pdats m) ((pdats m p c).share_full (hq c)) (fun b => Vin c b) (fun b => Vout c b)
      ((pdats m p c).arrAt · (cfgs p).N) hF fun b hb => hof c b fun h =>
        hb (List.mem_singleton.mp h ▸ Finset.mem_image.mpr ⟨wo, Finset.mem_univ _, rfl⟩)
    rw [Pipeline.unscopedBufs_held] at hjoin
    unfold Pipeline.Dat.owesAt Pipeline.owesWithin
    rw [how c]
    iintro ⟨Ha, ⟨%W, -, HO⟩, HY, Hrest⟩
    imodintro
    isplitl [Ha Hrest]
    · iapply hjoin; iframe
    isplitl [HY]; · iexact HY
    iexists W; iexact HO

def reg0 := regOf m 0 launch0 10 (Gen.V1 m) (Gen.V2 m (outs m)) (body_obligation0 fun c b => Gen.V1 m c b) (V2_out m) (Gen.V2_of m (outs m))
def reg1 := regOf m 1 launch1 10 (Gen.V3 m (outs m)) (Gen.V4 m (outs m)) (body_obligation1 fun c b => Gen.V3 m (outs m) c b) (V4_out m) (Gen.V4_of m (outs m))
def reg2 := regOf m 2 launch2 10 (Gen.V5 m (outs m)) (Gen.V6 m (outs m)) (body_obligation2 fun c b => Gen.V5 m (outs m) c b) (V6_out m) (Gen.V6_of m (outs m))
def reg3 := regOf m 3 launch3 10 (Gen.V7 m (outs m)) (Gen.V8 m (outs m)) (body_obligation3 fun c b => Gen.V7 m (outs m) c b) (V8_out m) (Gen.V8_of m (outs m))
def reg4 := regOf m 4 launch4 10 (Gen.V9 m (outs m)) (Gen.V10 m (outs m)) (body_obligation4 fun c b => Gen.V9 m (outs m) c b) (V10_out m) (Gen.V10_of m (outs m))
def reg5 := regOf m 5 launch5 6 (Gen.V11 m (outs m)) (Gen.V12 m (outs m)) (body_obligation5 fun c b => Gen.V11 m (outs m) c b) (V12_out m) (Gen.V12_of m (outs m)) (hin5 _) (hout5 _)

abbrev u₀ := initOf (Pipeline.cells cfgs cellOf_inj) (Pipeline.launchToks cfgs cellOf_inj)

theorem launch_ghost :
    (ownU u₀ : sProp 𝕄) ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl); iexact Hu
  iapply (show (BI.emp : sProp 𝕄) ⊢ bigSep Finset.univ (fun _ : Dev nD => (BI.emp : sProp 𝕄)) from by rw [BI.bigSep_emp_const])
  iempintro

theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts runL runLv)
      ⊢ (|={Set.univ}=> bigSep Finset.univ (fun c : Dev nD => R (F := F) c) : sProp 𝕄) := by
  refine Pipeline.initEach runL runLv fun c => ?_
  iintro ⟨⟨-, HO, -, Hp, -⟩, -⟩
  imodintro
  isplitl [Hp]; · iexists _; iexact Hp
  iexists ∅; iexact HO

theorem rest_owes (c : Dev nD) : R (F := F) c ⊢ (iprop(∃ W, owes (c : Thread nD τ) (0 : CellTallies nD τ sig Unit) W) : sProp 𝕄) := by
  iintro ⟨-, HO⟩; iexact HO

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond m emb₁ () Variants.none runL runLv (fun _ _ => rfl) ρ (outs m) (pdats m) 0 (fun _ => iprop(emp)) u₀ launch_ghost
    (fun _ c => R c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V12 m (outs m) c b) :=
  run_cond m emb₁ () Variants.none runL runLv (fun _ _ => rfl) ρ (outs m) (pdats m) 0 (fun _ => iprop(emp)) u₀ launch_ghost
    (fun _ c => R c) (launch_rest ρ) rest_owes
    (reg0 m) (fun _ => .rfl) (fun _ => .rfl) (reg1 m) (fun _ => .rfl) (fun _ => .rfl)
    (reg2 m) (fun _ => .rfl) (fun _ => .rfl) (reg3 m) (fun _ => .rfl) (fun _ => .rfl)
    (reg4 m) (fun _ => .rfl) (fun _ => .rfl) (reg5 m) (fun _ => .rfl) (fun _ => .rfl)

end Cert.KernelIdeal.Hand

end
-- ==== Proof.RefRunOps.lean ====
import proofs.«428006_j27865747816548_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev opsIds : List (HloOp τ sig (Elt F)) :=
  [ unary main_arg1 main_v0 (extractStridedSlice S1x640000 ![0, 0] · slices_S2x640000_S1x640000_0_0),
    reshape main_v0 main_v1 rfl shapeCasts_S1x640000_S640000,
    unary main_arg1 main_v2 (extractStridedSlice S1x640000 ![1, 0] · slices_S2x640000_S1x640000_1_0),
    reshape main_v2 main_v3 rfl shapeCasts_S1x640000_S640000 ]

abbrev opsL0 : List (HloOp τ sig (Elt F)) :=
  [ unary main_arg3 main_v4 (extractStridedSlice S1x128x128 ![0, 0, 0] · slices_S5x128x128_S1x128x128_0_0_0),
    reshape main_v4 main_v5 rfl shapeCasts_S1x128x128_S128x128,
    unary main_arg4 main_v6 (extractStridedSlice S1x128 ![0, 0] · slices_S5x128_S1x128_0_0),
    reshape main_v6 main_v7 rfl shapeCasts_S1x128_S128,
    unary main_arg5 main_v8 (extractStridedSlice S1x128 ![0, 0] · slices_S5x128_S1x128_0_0),
    reshape main_v8 main_v9 rfl shapeCasts_S1x128_S128,
    unary main_arg6 main_v10 (extractStridedSlice S1x128 ![0, 0] · slices_S5x128_S1x128_0_0),
    reshape main_v10 main_v11 rfl shapeCasts_S1x128_S128,
    unary main_arg7 main_v12 (extractStridedSlice S1x128 ![0, 0] · slices_S5x128_S1x128_0_0),
    reshape main_v12 main_v13 rfl shapeCasts_S1x128_S128,
    unary main_arg8 main_v14 (extractStridedSlice S1x128 ![0, 0] · slices_S5x128_S1x128_0_0),
    reshape main_v14 main_v15 rfl shapeCasts_S1x128_S128,
    unary main_arg9 main_v16 (extractStridedSlice S1x128x128 ![0, 0, 0] · slices_S5x128x128_S1x128x128_0_0_0),
    reshape main_v16 main_v17 rfl shapeCasts_S1x128x128_S128x128,
    unary main_arg10 main_v18 (extractStridedSlice S1x128 ![0, 0] · slices_S5x128_S1x128_0_0),
    reshape main_v18 main_v19 rfl shapeCasts_S1x128_S128,
    nullary main_c (constantI S_ 32 0#32),
    unary main_c main_v20 (broadcastInDim S640000 ![] bcast_S_S640000),
    binary main_v1 main_v20 main_v21 (cmpi .slt),
    nullary main_c_0 (constantI S_ 32 20000#32),
    unary main_c_0 main_v22 (broadcastInDim S640000 ![] bcast_S_S640000),
    binary main_v1 main_v22 main_v23 addi,
    ternary main_v21 main_v23 main_v1 main_v24 select,
    unary main_v24 main_v25 (broadcastInDim S640000x1 ![0] bcast_S640000_S640000x1_0),
    binary main_arg0 main_v25 main_v26 (fun x i => Host.gather gather_S20000x128_S640000x1_S640000x128_1_0_n_n_0_1_1128 x i),
    nullary main_cst (constant S_ .f32 0x00000000#32),
    unary main_cst main_v27 (broadcastInDim S20000x128 ![] bcast_S_S20000x128),
    unary main_v3 main_v28 (broadcastInDim S640000x1 ![0] bcast_S640000_S640000x1_0),
    ternary main_v27 main_v28 main_v26 main_v29 (fun x i u => Host.scatterAdd scatter_S20000x128_S640000x1_S640000x128_1_0_0_1 x i u),
    binary main_arg0 main_v29 main_v30 addf,
    binary main_v30 main_v5 main_v31 (fun l r => Host.dotGeneral dot_S20000x128_S128x128_S20000x128_1_0_0_1_n_n none l r),
    unary main_v7 main_v32 (broadcastInDim S1x128 ![1] bcast_S128_S1x128_1),
    unary main_v32 main_v33 (broadcastInDim S20000x128 ![0, 1] bcast_S1x128_S20000x128_0_1),
    binary main_v31 main_v33 main_v34 addf,
    unary main_v13 main_v35 (broadcastInDim S1x128 ![1] bcast_S128_S1x128_1),
    unary main_v35 main_v36 (broadcastInDim S20000x128 ![0, 1] bcast_S1x128_S20000x128_0_1),
    binary main_v34 main_v36 main_v37 subf,
    unary main_v9 main_v38 (broadcastInDim S1x128 ![1] bcast_S128_S1x128_1),
    unary main_v38 main_v39 (broadcastInDim S20000x128 ![0, 1] bcast_S1x128_S20000x128_0_1),
    binary main_v39 main_v37 main_v40 mulf,
    nullary main_cst_1 (constant S_ .f32 0x3727C5AC#32),
    unary main_cst_1 main_v41 (broadcastInDim S128 ![] bcast_S_S128),
    binary main_v15 main_v41 main_v42 addf,
    unary main_v42 main_v43 Host.rsqrt,
    unary main_v43 main_v44 (broadcastInDim S1x128 ![1] bcast_S128_S1x128_1),
    unary main_v44 main_v45 (broadcastInDim S20000x128 ![0, 1] bcast_S1x128_S20000x128_0_1),
    binary main_v40 main_v45 main_v46 mulf,
    unary main_v11 main_v47 (broadcastInDim S1x128 ![1] bcast_S128_S1x128_1),
    unary main_v47 main_v48 (broadcastInDim S20000x128 ![0, 1] bcast_S1x128_S20000x128_0_1),
    binary main_v46 main_v48 main_v49 addf,
    nullary main_call0_cst (constant S_ .f32 0x00000000#32),
    unary main_call0_cst main_call0_v0 (broadcastInDim S20000x128 ![] bcast_S_S20000x128),
    binary main_v49 main_call0_v0 main_v50 maximumf,
    binary main_v50 main_v17 main_v51 (fun l r => Host.dotGeneral dot_S20000x128_S128x128_S20000x128_1_0_0_1_n_n none l r),
    unary main_v19 main_v52 (broadcastInDim S1x128 ![1] bcast_S128_S1x128_1),
    unary main_v52 main_v53 (broadcastInDim S20000x128 ![0, 1] bcast_S1x128_S20000x128_0_1),
    binary main_v51 main_v53 main_v54 addf,
    nullary main_call1_cst (constant S_ .f32 0x00000000#32),
    unary main_call1_cst main_call1_v0 (broadcastInDim S20000x128 ![] bcast_S_S20000x128),
    binary main_v54 main_call1_v0 main_v55 maximumf ]

abbrev opsL1 : List (HloOp τ sig (Elt F)) :=
  [ unary main_arg3 main_v56 (extractStridedSlice S1x128x128 ![1, 0, 0] · slices_S5x128x128_S1x128x128_1_0_0),
    reshape main_v56 main_v57 rfl shapeCasts_S1x128x128_S128x128,
    unary main_arg4 main_v58 (extractStridedSlice S1x128 ![1, 0] · slices_S5x128_S1x128_1_0),
    reshape main_v58 main_v59 rfl shapeCasts_S1x128_S128,
    unary main_arg5 main_v60 (extractStridedSlice S1x128 ![1, 0] · slices_S5x128_S1x128_1_0),
    reshape main_v60 main_v61 rfl shapeCasts_S1x128_S128,
    unary main_arg6 main_v62 (extractStridedSlice S1x128 ![1, 0] · slices_S5x128_S1x128_1_0),
    reshape main_v62 main_v63 rfl shapeCasts_S1x128_S128,
    unary main_arg7 main_v64 (extractStridedSlice S1x128 ![1, 0] · slices_S5x128_S1x128_1_0),
    reshape main_v64 main_v65 rfl shapeCasts_S1x128_S128,
    unary main_arg8 main_v66 (extractStridedSlice S1x128 ![1, 0] · slices_S5x128_S1x128_1_0),
    reshape main_v66 main_v67 rfl shapeCasts_S1x128_S128,
    unary main_arg9 main_v68 (extractStridedSlice S1x128x128 ![1, 0, 0] · slices_S5x128x128_S1x128x128_1_0_0),
    reshape main_v68 main_v69 rfl shapeCasts_S1x128x128_S128x128,
    unary main_arg10 main_v70 (extractStridedSlice S1x128 ![1, 0] · slices_S5x128_S1x128_1_0),
    reshape main_v70 main_v71 rfl shapeCasts_S1x128_S128,
    nullary main_c_2 (constantI S_ 32 0#32),
    unary main_c_2 main_v72 (broadcastInDim S640000 ![] bcast_S_S640000),
    binary main_v1 main_v72 main_v73 (cmpi .slt),
    nullary main_c_3 (constantI S_ 32 20000#32),
    unary main_c_3 main_v74 (broadcastInDim S640000 ![] bcast_S_S640000),
    binary main_v1 main_v74 main_v75 addi,
    ternary main_v73 main_v75 main_v1 main_v76 select,
    unary main_v76 main_v77 (broadcastInDim S640000x1 ![0] bcast_S640000_S640000x1_0),
    binary main_v55 main_v77 main_v78 (fun x i => Host.gather gather_S20000x128_S640000x1_S640000x128_1_0_n_n_0_1_1128 x i),
    nullary main_cst_4 (constant S_ .f32 0x00000000#32),
    unary main_cst_4 main_v79 (broadcastInDim S20000x128 ![] bcast_S_S20000x128),
    unary main_v3 main_v80 (broadcastInDim S640000x1 ![0] bcast_S640000_S640000x1_0),
    ternary main_v79 main_v80 main_v78 main_v81 (fun x i u => Host.scatterAdd scatter_S20000x128_S640000x1_S640000x128_1_0_0_1 x i u),
    binary main_v55 main_v81 main_v82 addf,
    binary main_v82 main_v57 main_v83 (fun l r => Host.dotGeneral dot_S20000x128_S128x128_S20000x128_1_0_0_1_n_n none l r),
    unary main_v59 main_v84 (broadcastInDim S1x128 ![1] bcast_S128_S1x128_1),
    unary main_v84 main_v85 (broadcastInDim S20000x128 ![0, 1] bcast_S1x128_S20000x128_0_1),
    binary main_v83 main_v85 main_v86 addf,
    unary main_v65 main_v87 (broadcastInDim S1x128 ![1] bcast_S128_S1x128_1),
    unary main_v87 main_v88 (broadcastInDim S20000x128 ![0, 1] bcast_S1x128_S20000x128_0_1),
    binary main_v86 main_v88 main_v89 subf,
    unary main_v61 main_v90 (broadcastInDim S1x128 ![1] bcast_S128_S1x128_1),
    unary main_v90 main_v91 (broadcastInDim S20000x128 ![0, 1] bcast_S1x128_S20000x128_0_1),
    binary main_v91 main_v89 main_v92 mulf,
    nullary main_cst_5 (constant S_ .f32 0x3727C5AC#32),
    unary main_cst_5 main_v93 (broadcastInDim S128 ![] bcast_S_S128),
    binary main_v67 main_v93 main_v94 addf,
    unary main_v94 main_v95 Host.rsqrt,
    unary main_v95 main_v96 (broadcastInDim S1x128 ![1] bcast_S128_S1x128_1),
    unary main_v96 main_v97 (broadcastInDim S20000x128 ![0, 1] bcast_S1x128_S20000x128_0_1),
    binary main_v92 main_v97 main_v98 mulf,
    unary main_v63 main_v99 (broadcastInDim S1x128 ![1] bcast_S128_S1x128_1),
    unary main_v99 main_v100 (broadcastInDim S20000x128 ![0, 1] bcast_S1x128_S20000x128_0_1),
    binary main_v98 main_v100 main_v101 addf,
    nullary main_call2_cst (constant S_ .f32 0x00000000#32),
    unary main_call2_cst main_call2_v0 (broadcastInDim S20000x128 ![] bcast_S_S20000x128),
    binary main_v101 main_call2_v0 main_v102 maximumf,
    binary main_v102 main_v69 main_v103 (fun l r => Host.dotGeneral dot_S20000x128_S128x128_S20000x128_1_0_0_1_n_n none l r),
    unary main_v71 main_v104 (broadcastInDim S1x128 ![1] bcast_S128_S1x128_1),
    unary main_v104 main_v105 (broadcastInDim S20000x128 ![0, 1] bcast_S1x128_S20000x128_0_1),
    binary main_v103 main_v105 main_v106 addf,
    nullary main_call3_cst (constant S_ .f32 0x00000000#32),
    unary main_call3_cst main_call3_v0 (broadcastInDim S20000x128 ![] bcast_S_S20000x128),
    binary main_v106 main_call3_v0 main_v107 maximumf ]

abbrev opsL2a : List (HloOp τ sig (Elt F)) :=
  [ unary main_arg3 main_v108 (extractStridedSlice S1x128x128 ![2, 0, 0] · slices_S5x128x128_S1x128x128_2_0_0),
    reshape main_v108 main_v109 rfl shapeCasts_S1x128x128_S128x128,
    unary main_arg4 main_v110 (extractStridedSlice S1x128 ![2, 0] · slices_S5x128_S1x128_2_0),
    reshape main_v110 main_v111 rfl shapeCasts_S1x128_S128 ]

abbrev opsL2b : List (HloOp τ sig (Elt F)) :=
  [ unary main_arg5 main_v112 (extractStridedSlice S1x128 ![2, 0] · slices_S5x128_S1x128_2_0),
    reshape main_v112 main_v113 rfl shapeCasts_S1x128_S128,
    unary main_arg6 main_v114 (extractStridedSlice S1x128 ![2, 0] · slices_S5x128_S1x128_2_0),
    reshape main_v114 main_v115 rfl shapeCasts_S1x128_S128,
    unary main_arg7 main_v116 (extractStridedSlice S1x128 ![2, 0] · slices_S5x128_S1x128_2_0),
    reshape main_v116 main_v117 rfl shapeCasts_S1x128_S128,
    unary main_arg8 main_v118 (extractStridedSlice S1x128 ![2, 0] · slices_S5x128_S1x128_2_0),
    reshape main_v118 main_v119 rfl shapeCasts_S1x128_S128,
    unary main_arg9 main_v120 (extractStridedSlice S1x128x128 ![2, 0, 0] · slices_S5x128x128_S1x128x128_2_0_0),
    reshape main_v120 main_v121 rfl shapeCasts_S1x128x128_S128x128,
    unary main_arg10 main_v122 (extractStridedSlice S1x128 ![2, 0] · slices_S5x128_S1x128_2_0),
    reshape main_v122 main_v123 rfl shapeCasts_S1x128_S128,
    nullary main_c_6 (constantI S_ 32 0#32),
    unary main_c_6 main_v124 (broadcastInDim S640000 ![] bcast_S_S640000),
    binary main_v1 main_v124 main_v125 (cmpi .slt),
    nullary main_c_7 (constantI S_ 32 20000#32),
    unary main_c_7 main_v126 (broadcastInDim S640000 ![] bcast_S_S640000),
    binary main_v1 main_v126 main_v127 addi,
    ternary main_v125 main_v127 main_v1 main_v128 select,
    unary main_v128 main_v129 (broadcastInDim S640000x1 ![0] bcast_S640000_S640000x1_0),
    binary main_v107 main_v129 main_v130 (fun x i => Host.gather gather_S20000x128_S640000x1_S640000x128_1_0_n_n_0_1_1128 x i),
    nullary main_cst_8 (constant S_ .f32 0x00000000#32),
    unary main_cst_8 main_v131 (broadcastInDim S20000x128 ![] bcast_S_S20000x128),
    unary main_v3 main_v132 (broadcastInDim S640000x1 ![0] bcast_S640000_S640000x1_0),
    ternary main_v131 main_v132 main_v130 main_v133 (fun x i u => Host.scatterAdd scatter_S20000x128_S640000x1_S640000x128_1_0_0_1 x i u),
    binary main_v107 main_v133 main_v134 addf,
    binary main_v134 main_v109 main_v135 (fun l r => Host.dotGeneral dot_S20000x128_S128x128_S20000x128_1_0_0_1_n_n none l r),
    unary main_v111 main_v136 (broadcastInDim S1x128 ![1] bcast_S128_S1x128_1),
    unary main_v136 main_v137 (broadcastInDim S20000x128 ![0, 1] bcast_S1x128_S20000x128_0_1),
    binary main_v135 main_v137 main_v138 addf,
    unary main_v117 main_v139 (broadcastInDim S1x128 ![1] bcast_S128_S1x128_1),
    unary main_v139 main_v140 (broadcastInDim S20000x128 ![0, 1] bcast_S1x128_S20000x128_0_1),
    binary main_v138 main_v140 main_v141 subf,
    unary main_v113 main_v142 (broadcastInDim S1x128 ![1] bcast_S128_S1x128_1),
    unary main_v142 main_v143 (broadcastInDim S20000x128 ![0, 1] bcast_S1x128_S20000x128_0_1),
    binary main_v143 main_v141 main_v144 mulf,
    nullary main_cst_9 (constant S_ .f32 0x3727C5AC#32),
    unary main_cst_9 main_v145 (broadcastInDim S128 ![] bcast_S_S128),
    binary main_v119 main_v145 main_v146 addf,
    unary main_v146 main_v147 Host.rsqrt,
    unary main_v147 main_v148 (broadcastInDim S1x128 ![1] bcast_S128_S1x128_1),
    unary main_v148 main_v149 (broadcastInDim S20000x128 ![0, 1] bcast_S1x128_S20000x128_0_1),
    binary main_v144 main_v149 main_v150 mulf,
    unary main_v115 main_v151 (broadcastInDim S1x128 ![1] bcast_S128_S1x128_1),
    unary main_v151 main_v152 (broadcastInDim S20000x128 ![0, 1] bcast_S1x128_S20000x128_0_1),
    binary main_v150 main_v152 main_v153 addf,
    nullary main_call4_cst (constant S_ .f32 0x00000000#32),
    unary main_call4_cst main_call4_v0 (broadcastInDim S20000x128 ![] bcast_S_S20000x128),
    binary main_v153 main_call4_v0 main_v154 maximumf,
    binary main_v154 main_v121 main_v155 (fun l r => Host.dotGeneral dot_S20000x128_S128x128_S20000x128_1_0_0_1_n_n none l r),
    unary main_v123 main_v156 (broadcastInDim S1x128 ![1] bcast_S128_S1x128_1),
    unary main_v156 main_v157 (broadcastInDim S20000x128 ![0, 1] bcast_S1x128_S20000x128_0_1),
    binary main_v155 main_v157 main_v158 addf,
    nullary main_call5_cst (constant S_ .f32 0x00000000#32),
    unary main_call5_cst main_call5_v0 (broadcastInDim S20000x128 ![] bcast_S_S20000x128),
    binary main_v158 main_call5_v0 main_v159 maximumf ]

abbrev opsL3a : List (HloOp τ sig (Elt F)) :=
  [ unary main_arg3 main_v160 (extractStridedSlice S1x128x128 ![3, 0, 0] · slices_S5x128x128_S1x128x128_3_0_0),
    reshape main_v160 main_v161 rfl shapeCasts_S1x128x128_S128x128,
    unary main_arg4 main_v162 (extractStridedSlice S1x128 ![3, 0] · slices_S5x128_S1x128_3_0),
    reshape main_v162 main_v163 rfl shapeCasts_S1x128_S128,
    unary main_arg5 main_v164 (extractStridedSlice S1x128 ![3, 0] · slices_S5x128_S1x128_3_0),
    reshape main_v164 main_v165 rfl shapeCasts_S1x128_S128,
    unary main_arg6 main_v166 (extractStridedSlice S1x128 ![3, 0] · slices_S5x128_S1x128_3_0),
    reshape main_v166 main_v167 rfl shapeCasts_S1x128_S128 ]

abbrev opsL3b : List (HloOp τ sig (Elt F)) :=
  [ unary main_arg7 main_v168 (extractStridedSlice S1x128 ![3, 0] · slices_S5x128_S1x128_3_0),
    reshape main_v168 main_v169 rfl shapeCasts_S1x128_S128,
    unary main_arg8 main_v170 (extractStridedSlice S1x128 ![3, 0] · slices_S5x128_S1x128_3_0),
    reshape main_v170 main_v171 rfl shapeCasts_S1x128_S128,
    unary main_arg9 main_v172 (extractStridedSlice S1x128x128 ![3, 0, 0] · slices_S5x128x128_S1x128x128_3_0_0),
    reshape main_v172 main_v173 rfl shapeCasts_S1x128x128_S128x128,
    unary main_arg10 main_v174 (extractStridedSlice S1x128 ![3, 0] · slices_S5x128_S1x128_3_0),
    reshape main_v174 main_v175 rfl shapeCasts_S1x128_S128,
    nullary main_c_10 (constantI S_ 32 0#32),
    unary main_c_10 main_v176 (broadcastInDim S640000 ![] bcast_S_S640000),
    binary main_v1 main_v176 main_v177 (cmpi .slt),
    nullary main_c_11 (constantI S_ 32 20000#32),
    unary main_c_11 main_v178 (broadcastInDim S640000 ![] bcast_S_S640000),
    binary main_v1 main_v178 main_v179 addi,
    ternary main_v177 main_v179 main_v1 main_v180 select,
    unary main_v180 main_v181 (broadcastInDim S640000x1 ![0] bcast_S640000_S640000x1_0),
    binary main_v159 main_v181 main_v182 (fun x i => Host.gather gather_S20000x128_S640000x1_S640000x128_1_0_n_n_0_1_1128 x i),
    nullary main_cst_12 (constant S_ .f32 0x00000000#32),
    unary main_cst_12 main_v183 (broadcastInDim S20000x128 ![] bcast_S_S20000x128),
    unary main_v3 main_v184 (broadcastInDim S640000x1 ![0] bcast_S640000_S640000x1_0),
    ternary main_v183 main_v184 main_v182 main_v185 (fun x i u => Host.scatterAdd scatter_S20000x128_S640000x1_S640000x128_1_0_0_1 x i u),
    binary main_v159 main_v185 main_v186 addf,
    binary main_v186 main_v161 main_v187 (fun l r => Host.dotGeneral dot_S20000x128_S128x128_S20000x128_1_0_0_1_n_n none l r),
    unary main_v163 main_v188 (broadcastInDim S1x128 ![1] bcast_S128_S1x128_1),
    unary main_v188 main_v189 (broadcastInDim S20000x128 ![0, 1] bcast_S1x128_S20000x128_0_1),
    binary main_v187 main_v189 main_v190 addf,
    unary main_v169 main_v191 (broadcastInDim S1x128 ![1] bcast_S128_S1x128_1),
    unary main_v191 main_v192 (broadcastInDim S20000x128 ![0, 1] bcast_S1x128_S20000x128_0_1),
    binary main_v190 main_v192 main_v193 subf,
    unary main_v165 main_v194 (broadcastInDim S1x128 ![1] bcast_S128_S1x128_1),
    unary main_v194 main_v195 (broadcastInDim S20000x128 ![0, 1] bcast_S1x128_S20000x128_0_1),
    binary main_v195 main_v193 main_v196 mulf,
    nullary main_cst_13 (constant S_ .f32 0x3727C5AC#32),
    unary main_cst_13 main_v197 (broadcastInDim S128 ![] bcast_S_S128),
    binary main_v171 main_v197 main_v198 addf,
    unary main_v198 main_v199 Host.rsqrt,
    unary main_v199 main_v200 (broadcastInDim S1x128 ![1] bcast_S128_S1x128_1),
    unary main_v200 main_v201 (broadcastInDim S20000x128 ![0, 1] bcast_S1x128_S20000x128_0_1),
    binary main_v196 main_v201 main_v202 mulf,
    unary main_v167 main_v203 (broadcastInDim S1x128 ![1] bcast_S128_S1x128_1),
    unary main_v203 main_v204 (broadcastInDim S20000x128 ![0, 1] bcast_S1x128_S20000x128_0_1),
    binary main_v202 main_v204 main_v205 addf,
    nullary main_call6_cst (constant S_ .f32 0x00000000#32),
    unary main_call6_cst main_call6_v0 (broadcastInDim S20000x128 ![] bcast_S_S20000x128),
    binary main_v205 main_call6_v0 main_v206 maximumf,
    binary main_v206 main_v173 main_v207 (fun l r => Host.dotGeneral dot_S20000x128_S128x128_S20000x128_1_0_0_1_n_n none l r),
    unary main_v175 main_v208 (broadcastInDim S1x128 ![1] bcast_S128_S1x128_1),
    unary main_v208 main_v209 (broadcastInDim S20000x128 ![0, 1] bcast_S1x128_S20000x128_0_1),
    binary main_v207 main_v209 main_v210 addf,
    nullary main_call7_cst (constant S_ .f32 0x00000000#32),
    unary main_call7_cst main_call7_v0 (broadcastInDim S20000x128 ![] bcast_S_S20000x128),
    binary main_v210 main_call7_v0 main_v211 maximumf ]

abbrev opsL4a : List (HloOp τ sig (Elt F)) :=
  [ unary main_arg3 main_v212 (extractStridedSlice S1x128x128 ![4, 0, 0] · slices_S5x128x128_S1x128x128_4_0_0),
    reshape main_v212 main_v213 rfl shapeCasts_S1x128x128_S128x128,
    unary main_arg4 main_v214 (extractStridedSlice S1x128 ![4, 0] · slices_S5x128_S1x128_4_0),
    reshape main_v214 main_v215 rfl shapeCasts_S1x128_S128,
    unary main_arg5 main_v216 (extractStridedSlice S1x128 ![4, 0] · slices_S5x128_S1x128_4_0),
    reshape main_v216 main_v217 rfl shapeCasts_S1x128_S128,
    unary main_arg6 main_v218 (extractStridedSlice S1x128 ![4, 0] · slices_S5x128_S1x128_4_0),
    reshape main_v218 main_v219 rfl shapeCasts_S1x128_S128,
    unary main_arg7 main_v220 (extractStridedSlice S1x128 ![4, 0] · slices_S5x128_S1x128_4_0),
    reshape main_v220 main_v221 rfl shapeCasts_S1x128_S128,
    unary main_arg8 main_v222 (extractStridedSlice S1x128 ![4, 0] · slices_S5x128_S1x128_4_0),
    reshape main_v222 main_v223 rfl shapeCasts_S1x128_S128 ]

abbrev opsL4b : List (HloOp τ sig (Elt F)) :=
  [ unary main_arg9 main_v224 (extractStridedSlice S1x128x128 ![4, 0, 0] · slices_S5x128x128_S1x128x128_4_0_0),
    reshape main_v224 main_v225 rfl shapeCasts_S1x128x128_S128x128,
    unary main_arg10 main_v226 (extractStridedSlice S1x128 ![4, 0] · slices_S5x128_S1x128_4_0),
    reshape main_v226 main_v227 rfl shapeCasts_S1x128_S128,
    nullary main_c_14 (constantI S_ 32 0#32),
    unary main_c_14 main_v228 (broadcastInDim S640000 ![] bcast_S_S640000),
    binary main_v1 main_v228 main_v229 (cmpi .slt),
    nullary main_c_15 (constantI S_ 32 20000#32),
    unary main_c_15 main_v230 (broadcastInDim S640000 ![] bcast_S_S640000),
    binary main_v1 main_v230 main_v231 addi,
    ternary main_v229 main_v231 main_v1 main_v232 select,
    unary main_v232 main_v233 (broadcastInDim S640000x1 ![0] bcast_S640000_S640000x1_0),
    binary main_v211 main_v233 main_v234 (fun x i => Host.gather gather_S20000x128_S640000x1_S640000x128_1_0_n_n_0_1_1128 x i),
    nullary main_cst_16 (constant S_ .f32 0x00000000#32),
    unary main_cst_16 main_v235 (broadcastInDim S20000x128 ![] bcast_S_S20000x128),
    unary main_v3 main_v236 (broadcastInDim S640000x1 ![0] bcast_S640000_S640000x1_0),
    ternary main_v235 main_v236 main_v234 main_v237 (fun x i u => Host.scatterAdd scatter_S20000x128_S640000x1_S640000x128_1_0_0_1 x i u),
    binary main_v211 main_v237 main_v238 addf,
    binary main_v238 main_v213 main_v239 (fun l r => Host.dotGeneral dot_S20000x128_S128x128_S20000x128_1_0_0_1_n_n none l r),
    unary main_v215 main_v240 (broadcastInDim S1x128 ![1] bcast_S128_S1x128_1),
    unary main_v240 main_v241 (broadcastInDim S20000x128 ![0, 1] bcast_S1x128_S20000x128_0_1),
    binary main_v239 main_v241 main_v242 addf,
    unary main_v221 main_v243 (broadcastInDim S1x128 ![1] bcast_S128_S1x128_1),
    unary main_v243 main_v244 (broadcastInDim S20000x128 ![0, 1] bcast_S1x128_S20000x128_0_1),
    binary main_v242 main_v244 main_v245 subf,
    unary main_v217 main_v246 (broadcastInDim S1x128 ![1] bcast_S128_S1x128_1),
    unary main_v246 main_v247 (broadcastInDim S20000x128 ![0, 1] bcast_S1x128_S20000x128_0_1),
    binary main_v247 main_v245 main_v248 mulf,
    nullary main_cst_17 (constant S_ .f32 0x3727C5AC#32),
    unary main_cst_17 main_v249 (broadcastInDim S128 ![] bcast_S_S128),
    binary main_v223 main_v249 main_v250 addf,
    unary main_v250 main_v251 Host.rsqrt,
    unary main_v251 main_v252 (broadcastInDim S1x128 ![1] bcast_S128_S1x128_1),
    unary main_v252 main_v253 (broadcastInDim S20000x128 ![0, 1] bcast_S1x128_S20000x128_0_1),
    binary main_v248 main_v253 main_v254 mulf,
    unary main_v219 main_v255 (broadcastInDim S1x128 ![1] bcast_S128_S1x128_1),
    unary main_v255 main_v256 (broadcastInDim S20000x128 ![0, 1] bcast_S1x128_S20000x128_0_1),
    binary main_v254 main_v256 main_v257 addf,
    nullary main_call8_cst (constant S_ .f32 0x00000000#32),
    unary main_call8_cst main_call8_v0 (broadcastInDim S20000x128 ![] bcast_S_S20000x128),
    binary main_v257 main_call8_v0 main_v258 maximumf,
    binary main_v258 main_v225 main_v259 (fun l r => Host.dotGeneral dot_S20000x128_S128x128_S20000x128_1_0_0_1_n_n none l r),
    unary main_v227 main_v260 (broadcastInDim S1x128 ![1] bcast_S128_S1x128_1),
    unary main_v260 main_v261 (broadcastInDim S20000x128 ![0, 1] bcast_S1x128_S20000x128_0_1),
    binary main_v259 main_v261 main_v262 addf,
    nullary main_call9_cst (constant S_ .f32 0x00000000#32),
    unary main_call9_cst main_call9_v0 (broadcastInDim S20000x128 ![] bcast_S_S20000x128),
    binary main_v262 main_call9_v0 main_v263 maximumf ]

abbrev opsHead : List (HloOp τ sig (Elt F)) :=
  [ nullary main_cst_18 (constant S_ .f32 0x00000000#32),
    unary main_cst_18 main_v264 (broadcastInDim S128x128 ![] bcast_S_S128x128),
    unary main_arg2 main_v265 (broadcastInDim S20000x1 ![0] bcast_S20000_S20000x1_0),
    ternary main_v264 main_v265 main_v263 main_v266 (fun x i u => Host.scatterAdd scatter_S128x128_S20000x1_S20000x128_1_0_0_1 x i u),
    binary main_v266 main_arg11 main_v267 (fun l r => Host.dotGeneral dot_S128x128_S128x128_S128x128_1_0_0_1_n_n none l r),
    unary main_arg12 main_v268 (broadcastInDim S1x128 ![1] bcast_S128_S1x128_1),
    unary main_v268 main_v269 (broadcastInDim S128x128 ![0, 1] bcast_S1x128_S128x128_0_1),
    binary main_v267 main_v269 main_v270 addf,
    nullary main_call10_cst (constant S_ .f32 0x00000000#32),
    unary main_call10_cst main_call10_v0 (broadcastInDim S128x128 ![] bcast_S_S128x128),
    binary main_v270 main_call10_v0 main_v271 maximumf,
    binary main_v271 main_arg13 main_v272 (fun l r => Host.dotGeneral dot_S128x128_S128x10_S128x10_1_0_0_1_n_n none l r),
    unary main_arg14 main_v273 (broadcastInDim S1x10 ![1] bcast_S10_S1x10_1),
    unary main_v273 main_v274 (broadcastInDim S128x10 ![0, 1] bcast_S1x10_S128x10_0_1),
    binary main_v272 main_v274 main_v275 addf,
    nullary main_call11_cst (constant S_ .f32 0xFF800000#32),
    binary main_v275 main_call11_cst main_call11_v0 (fun x v => Host.reduce FloatOps.maximumf x v reducesTo_S128x10_S128_d1 h_S_),
    nullary main_call11_cst_0 (constant S_ .f32 0xFF800000#32),
    unary main_call11_cst_0 main_call11_v1 (broadcastInDim S128 ![] bcast_S_S128),
    binary main_call11_v1 main_call11_v0 main_call11_v2 maximumf,
    unary main_call11_v2 main_call11_v3 (broadcastInDim S128x1 ![0] bcast_S128_S128x1_0),
    unary main_call11_v3 main_call11_v4 (broadcastInDim S128x10 ![0, 1] bcast_S128x1_S128x10_0_1),
    binary main_v275 main_call11_v4 main_call11_v5 subf,
    unary main_call11_v5 main_call11_v6 Host.exp,
    nullary main_call11_cst_1 (constant S_ .f32 0x00000000#32),
    binary main_call11_v6 main_call11_cst_1 main_call11_v7 (fun x v => Host.reduceAdd x v reducesTo_S128x10_S128_d1 h_S_),
    unary main_call11_v7 main_call11_v8 (broadcastInDim S128x1 ![0] bcast_S128_S128x1_0),
    unary main_call11_v8 main_call11_v9 Host.log,
    unary main_call11_v9 main_call11_v10 (broadcastInDim S128x10 ![0, 1] bcast_S128x1_S128x10_0_1),
    binary main_call11_v5 main_call11_v10 main_v276 subf ]

def opsW0 : List (HloOp τ sig (Elt F)) := opsIds ++ opsL0
def opsW1 : List (HloOp τ sig (Elt F)) := opsL1 ++ opsL2a
def opsW2 : List (HloOp τ sig (Elt F)) := opsL2b ++ opsL3a
def opsW3 : List (HloOp τ sig (Elt F)) := opsL3b ++ opsL4a
def opsW4 : List (HloOp τ sig (Elt F)) := opsL4b ++ opsHead

def opsAll : List (HloOp τ sig (Elt F)) := opsW0 ++ (opsW1 ++ (opsW2 ++ (opsW3 ++ opsW4)))

end Cert.ReferenceIdeal.HandRun

end
-- ==== Proof.RefRunMain.lean ====
import proofs.«428006_j27865747816548_3_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq opsW0 := rfl
set_option maxRecDepth 8192 in
set_option maxHeartbeats 4000000 in
theorem main_part1_eq (c : Dev nD) : main_part1 (F := F) c = seq opsW1 := rfl
set_option maxRecDepth 8192 in
set_option maxHeartbeats 4000000 in
theorem main_part2_eq (c : Dev nD) : main_part2 (F := F) c = seq opsW2 := rfl
set_option maxRecDepth 8192 in
set_option maxHeartbeats 4000000 in
theorem main_part3_eq (c : Dev nD) : main_part3 (F := F) c = seq opsW3 := rfl
set_option maxRecDepth 8192 in
set_option maxHeartbeats 4000000 in
theorem main_part4_eq (c : Dev nD) : main_part4 (F := F) c = seq opsW4 := rfl

set_option maxRecDepth 8192 in
theorem main_eq (c : Dev nD) : main (F := F) c = seq opsAll := by
  simp only [opsAll, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsIds_ok : (opsIds : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL0_ok : (opsL0 : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL1_ok : (opsL1 : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL2a_ok : (opsL2a : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL2b_ok : (opsL2b : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL3a_ok : (opsL3a : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL3b_ok : (opsL3b : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL4a_ok : (opsL4a : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsL4b_ok : (opsL4b : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩
set_option maxRecDepth 8192 in
theorem opsHead_ok : (opsHead : List (HloOp τ sig (Elt F))).Forall fun op => op.bufs ⊆ tcRefs τ sig ∧ op.fresh = ∅ := by
  simp only [List.Forall, nullary_bufs_sub, unary_bufs_sub, binary_bufs_sub, ternary_bufs_sub, reshape_bufs_sub, true_and]
  repeat' apply And.intro
  all_goals first | rfl | exact ⟨nullary_bufs_sub .., rfl⟩ | exact ⟨unary_bufs_sub .., rfl⟩ | exact ⟨binary_bufs_sub .., rfl⟩

theorem ops_ok {op : HloOp τ sig (Elt F)} (h : op ∈ opsAll) : op.bufs ⊆ tcRefs τ sig ∧ op.fresh = ∅ := by
  simp only [opsAll, opsW0, opsW1, opsW2, opsW3, opsW4, List.mem_append] at h
  rcases h with (h | h) | (h | h) | (h | h) | (h | h) | (h | h)
  exacts [List.forall_iff_forall_mem.mp opsIds_ok op h, List.forall_iff_forall_mem.mp opsL0_ok op h, List.forall_iff_forall_mem.mp opsL1_ok op h, List.forall_iff_forall_mem.mp opsL2a_ok op h, List.forall_iff_forall_mem.mp opsL2b_ok op h, List.forall_iff_forall_mem.mp opsL3a_ok op h, List.forall_iff_forall_mem.mp opsL3b_ok op h, List.forall_iff_forall_mem.mp opsL4a_ok op h, List.forall_iff_forall_mem.mp opsL4b_ok op h, List.forall_iff_forall_mem.mp opsHead_ok op h]

theorem base (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after opsAll (launchContents m d) (Proc.devRef .tc b) :=
  run_seq scopedRefs_eq scopedSems_eq defs main (fun _ => opsAll) main_eq
    (fun _ => List.forall_iff_forall_mem.mpr fun _ h => (ops_ok h).1) m ρ (fun _ _ h => (ops_ok h).2)

theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_opsAll (V : Valuation τ sig (Elt F)) :
    after opsAll V
      = after opsHead (after opsL4b (after opsL4a (after opsL3b (after opsL3a (after opsL2b (after opsL2a
          (after opsL1 (after opsL0 (after opsIds V))))))))) := by
  simp only [opsAll, opsW0, opsW1, opsW2, opsW3, opsW4, after_app]

end Cert.ReferenceIdeal.HandRun

end
-- ==== Proof.RefDefs.lean ====
import proofs.«428006_j27865747816548_3_alg».proof.Proof.Gen.ReferenceIdeal
import Idealize.ShloMosaic.PureOps.Ideal
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.ValueIdx

def aggH (h : FVec Ideal S20000x128 .f32) (ei : IVec S2x640000 32) : FVec Ideal S20000x128 .f32 :=
  Host.scatterAdd scatter_S20000x128_S640000x1_S640000x128_1_0_0_1 (broadcastInDim S20000x128 ![] bcast_S_S20000x128 (constant S_ .f32 0x00000000#32)) (broadcastInDim S640000x1 ![0] bcast_S640000_S640000x1_0 (shapeCast _ (extractStridedSlice S1x640000 ![1, 0] ei slices_S2x640000_S1x640000_1_0) shapeCasts_S1x640000_S640000)) (Host.gather gather_S20000x128_S640000x1_S640000x128_1_0_n_n_0_1_1128 h (broadcastInDim S640000x1 ![0] bcast_S640000_S640000x1_0 (select (cmpi .slt (shapeCast _ (extractStridedSlice S1x640000 ![0, 0] ei slices_S2x640000_S1x640000_0_0) shapeCasts_S1x640000_S640000) (broadcastInDim S640000 ![] bcast_S_S640000 (constantI S_ 32 0#32))) (addi (shapeCast _ (extractStridedSlice S1x640000 ![0, 0] ei slices_S2x640000_S1x640000_0_0) shapeCasts_S1x640000_S640000) (broadcastInDim S640000 ![] bcast_S_S640000 (constantI S_ 32 20000#32))) (shapeCast _ (extractStridedSlice S1x640000 ![0, 0] ei slices_S2x640000_S1x640000_0_0) shapeCasts_S1x640000_S640000))))

def layerH (h : FVec Ideal S20000x128 .f32) (ei : IVec S2x640000 32) (W1 : FVec Ideal S128x128 .f32)
    (b1 g bt mu v : FVec Ideal S128 .f32) (W2 : FVec Ideal S128x128 .f32) (b2 : FVec Ideal S128 .f32) :
    FVec Ideal S20000x128 .f32 :=
  maximumf (addf (Host.dotGeneral dot_S20000x128_S128x128_S20000x128_1_0_0_1_n_n none (maximumf (addf (mulf (mulf (broadcastInDim S20000x128 ![0, 1] bcast_S1x128_S20000x128_0_1 (broadcastInDim S1x128 ![1] bcast_S128_S1x128_1 g)) (subf (addf (Host.dotGeneral dot_S20000x128_S128x128_S20000x128_1_0_0_1_n_n none (addf h (aggH h ei)) W1) (broadcastInDim S20000x128 ![0, 1] bcast_S1x128_S20000x128_0_1 (broadcastInDim S1x128 ![1] bcast_S128_S1x128_1 b1))) (broadcastInDim S20000x128 ![0, 1] bcast_S1x128_S20000x128_0_1 (broadcastInDim S1x128 ![1] bcast_S128_S1x128_1 mu)))) (broadcastInDim S20000x128 ![0, 1] bcast_S1x128_S20000x128_0_1 (broadcastInDim S1x128 ![1] bcast_S128_S1x128_1 (Host.rsqrt (addf v (broadcastInDim S128 ![] bcast_S_S128 (constant S_ .f32 0x3727C5AC#32))))))) (broadcastInDim S20000x128 ![0, 1] bcast_S1x128_S20000x128_0_1 (broadcastInDim S1x128 ![1] bcast_S128_S1x128_1 bt))) (broadcastInDim S20000x128 ![] bcast_S_S20000x128 (constant S_ .f32 0x00000000#32))) W2) (broadcastInDim S20000x128 ![0, 1] bcast_S1x128_S20000x128_0_1 (broadcastInDim S1x128 ![1] bcast_S128_S1x128_1 b2))) (broadcastInDim S20000x128 ![] bcast_S_S20000x128 (constant S_ .f32 0x00000000#32))

def w3 (l : Fin 5) (a : FVec Ideal S5x128x128 .f32) : FVec Ideal S128x128 .f32 :=
  match l with
  | 0 => shapeCast _ (extractStridedSlice S1x128x128 ![0, 0, 0] a slices_S5x128x128_S1x128x128_0_0_0) shapeCasts_S1x128x128_S128x128
  | 1 => shapeCast _ (extractStridedSlice S1x128x128 ![1, 0, 0] a slices_S5x128x128_S1x128x128_1_0_0) shapeCasts_S1x128x128_S128x128
  | 2 => shapeCast _ (extractStridedSlice S1x128x128 ![2, 0, 0] a slices_S5x128x128_S1x128x128_2_0_0) shapeCasts_S1x128x128_S128x128
  | 3 => shapeCast _ (extractStridedSlice S1x128x128 ![3, 0, 0] a slices_S5x128x128_S1x128x128_3_0_0) shapeCasts_S1x128x128_S128x128
  | 4 => shapeCast _ (extractStridedSlice S1x128x128 ![4, 0, 0] a slices_S5x128x128_S1x128x128_4_0_0) shapeCasts_S1x128x128_S128x128

def w2 (l : Fin 5) (a : FVec Ideal S5x128 .f32) : FVec Ideal S128 .f32 :=
  match l with
  | 0 => shapeCast _ (extractStridedSlice S1x128 ![0, 0] a slices_S5x128_S1x128_0_0) shapeCasts_S1x128_S128
  | 1 => shapeCast _ (extractStridedSlice S1x128 ![1, 0] a slices_S5x128_S1x128_1_0) shapeCasts_S1x128_S128
  | 2 => shapeCast _ (extractStridedSlice S1x128 ![2, 0] a slices_S5x128_S1x128_2_0) shapeCasts_S1x128_S128
  | 3 => shapeCast _ (extractStridedSlice S1x128 ![3, 0] a slices_S5x128_S1x128_3_0) shapeCasts_S1x128_S128
  | 4 => shapeCast _ (extractStridedSlice S1x128 ![4, 0] a slices_S5x128_S1x128_4_0) shapeCasts_S1x128_S128

def poolH (b : IVec S20000 32) (h : FVec Ideal S20000x128 .f32) : FVec Ideal S128x128 .f32 :=
  Host.scatterAdd scatter_S128x128_S20000x1_S20000x128_1_0_0_1 (broadcastInDim S128x128 ![] bcast_S_S128x128 (constant S_ .f32 0x00000000#32)) (broadcastInDim S20000x1 ![0] bcast_S20000_S20000x1_0 b) h

def logitsH (b : IVec S20000 32) (h : FVec Ideal S20000x128 .f32) (l1W : FVec Ideal S128x128 .f32)
    (l1b : FVec Ideal S128 .f32) (l2W : FVec Ideal S128x10 .f32) (l2b : FVec Ideal S10 .f32) : FVec Ideal S128x10 .f32 :=
  addf (Host.dotGeneral dot_S128x128_S128x10_S128x10_1_0_0_1_n_n none (maximumf (addf (Host.dotGeneral dot_S128x128_S128x128_S128x128_1_0_0_1_n_n none (poolH b h) l1W) (broadcastInDim S128x128 ![0, 1] bcast_S1x128_S128x128_0_1 (broadcastInDim S1x128 ![1] bcast_S128_S1x128_1 l1b))) (broadcastInDim S128x128 ![] bcast_S_S128x128 (constant S_ .f32 0x00000000#32))) l2W) (broadcastInDim S128x10 ![0, 1] bcast_S1x10_S128x10_0_1 (broadcastInDim S1x10 ![1] bcast_S10_S1x10_1 l2b))

def rowMaxH (x : FVec Ideal S128x10 .f32) : FVec Ideal S128x10 .f32 :=
  broadcastInDim S128x10 ![0, 1] bcast_S128x1_S128x10_0_1 (broadcastInDim S128x1 ![0] bcast_S128_S128x1_0 (maximumf (broadcastInDim S128 ![] bcast_S_S128 (constant S_ .f32 0xFF800000#32)) (Host.reduce FloatOps.maximumf x (constant S_ .f32 0xFF800000#32) reducesTo_S128x10_S128_d1 h_S_)))

def logSoftmaxH (x : FVec Ideal S128x10 .f32) : FVec Ideal S128x10 .f32 :=
  subf (subf x (rowMaxH x)) (broadcastInDim S128x10 ![0, 1] bcast_S128x1_S128x10_0_1 (Host.log (broadcastInDim S128x1 ![0] bcast_S128_S128x1_0 (Host.reduceAdd (Host.exp (subf x (rowMaxH x))) (constant S_ .f32 0x00000000#32) reducesTo_S128x10_S128_d1 h_S_))))

def headH (b : IVec S20000 32) (h : FVec Ideal S20000x128 .f32) (l1W : FVec Ideal S128x128 .f32)
    (l1b : FVec Ideal S128 .f32) (l2W : FVec Ideal S128x10 .f32) (l2b : FVec Ideal S10 .f32) : FVec Ideal S128x10 .f32 :=
  logSoftmaxH (logitsH b h l1W l1b l2W l2b)

def L (m : (ℓ : Loc nD τ sig) → Buf (Elt Ideal) ℓ) (c : Dev nD) (l : Fin 5) (h : FVec Ideal S20000x128 .f32) :
    FVec Ideal S20000x128 .f32 :=
  layerH h (m ((c.tc : Thread nD τ).loc main_arg1)) (w3 l (m ((c.tc : Thread nD τ).loc main_arg3))) (w2 l (m ((c.tc : Thread nD τ).loc main_arg4))) (w2 l (m ((c.tc : Thread nD τ).loc main_arg5))) (w2 l (m ((c.tc : Thread nD τ).loc main_arg6))) (w2 l (m ((c.tc : Thread nD τ).loc main_arg7))) (w2 l (m ((c.tc : Thread nD τ).loc main_arg8))) (w3 l (m ((c.tc : Thread nD τ).loc main_arg9))) (w2 l (m ((c.tc : Thread nD τ).loc main_arg10)))

end Cert.ReferenceIdeal.RefValue

end
-- ==== Proof.RefRunEnds.lean ====
import proofs.«428006_j27865747816548_3_alg».proof.Proof.RefRunOps
import proofs.«428006_j27865747816548_3_alg».proof.Proof.RefDefs

noncomputable section

namespace Cert.ReferenceIdeal.HandRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

abbrev opsIds_W : List (Ref sig .tc) := [main_v0, main_v1, main_v2, main_v3]
set_option maxRecDepth 8192 in
set_option maxHeartbeats 4000000 in
theorem opsIds_writes : (opsIds : List (HloOp τ sig (Elt F))).Forall fun op =>
    op.writes ⊆ (opsIds_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

abbrev opsHead_W : List (Ref sig .tc) := [main_cst_18, main_v264, main_v265, main_v266, main_v267, main_v268, main_v269, main_v270, main_call10_cst, main_call10_v0, main_v271, main_v272, main_v273, main_v274, main_v275, main_call11_cst, main_call11_v0, main_call11_cst_0, main_call11_v1, main_call11_v2, main_call11_v3, main_call11_v4, main_call11_v5, main_call11_v6, main_call11_cst_1, main_call11_v7, main_call11_v8, main_call11_v9, main_call11_v10, main_v276]
set_option maxRecDepth 8192 in
set_option maxHeartbeats 4000000 in
theorem opsHead_writes : (opsHead : List (HloOp τ sig (Elt F))).Forall fun op =>
    op.writes ⊆ (opsHead_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

theorem ids_keep (V : Valuation τ sig (Elt F)) {r : Ref sig .tc} (h : r ∉ opsIds_W) :
    after (opsIds (F := F)) V (Proc.devRef .tc r) = V (Proc.devRef .tc r) :=
  after_of_writes_sub opsIds V opsIds_writes h

theorem head_keep (V : Valuation τ sig (Elt F)) {r : Ref sig .tc} (h : r ∉ opsHead_W) :
    after (opsHead (F := F)) V (Proc.devRef .tc r) = V (Proc.devRef .tc r) :=
  after_of_writes_sub opsHead V opsHead_writes h

theorem ids_v1 (V : Valuation τ sig (Elt Ideal)) :
    after (opsIds (F := Ideal)) V (Proc.devRef .tc main_v1)
      = (shapeCast _ (extractStridedSlice S1x640000 ![0, 0] (V (Proc.devRef .tc main_arg1)) slices_S2x640000_S1x640000_0_0) shapeCasts_S1x640000_S640000) := by
  simp only [opsIds]
  after_results_simp
  rfl

theorem ids_v3 (V : Valuation τ sig (Elt Ideal)) :
    after (opsIds (F := Ideal)) V (Proc.devRef .tc main_v3)
      = (shapeCast _ (extractStridedSlice S1x640000 ![1, 0] (V (Proc.devRef .tc main_arg1)) slices_S2x640000_S1x640000_1_0) shapeCasts_S1x640000_S640000) := by
  simp only [opsIds]
  after_results_simp
  rfl

set_option maxRecDepth 8192 in
set_option maxHeartbeats 4000000 in
theorem head_out (V : Valuation τ sig (Elt Ideal)) :
    after (opsHead (F := Ideal)) V (Proc.devRef .tc main_v276)
      = headH (V (Proc.devRef .tc main_arg2)) (V (Proc.devRef .tc main_v263)) (V (Proc.devRef .tc main_arg11))
          (V (Proc.devRef .tc main_arg12)) (V (Proc.devRef .tc main_arg13)) (V (Proc.devRef .tc main_arg14)) := by
  simp only [opsHead]
  after_results_simp
  rfl

end Cert.ReferenceIdeal.HandRun

end
-- ==== Proof.RefRunL0.lean ====
import proofs.«428006_j27865747816548_3_alg».proof.Proof.RefRunOps
import proofs.«428006_j27865747816548_3_alg».proof.Proof.RefDefs

noncomputable section

namespace Cert.ReferenceIdeal.HandRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

abbrev opsL0_W : List (Ref sig .tc) := [main_v4, main_v5, main_v6, main_v7, main_v8, main_v9, main_v10, main_v11, main_v12, main_v13, main_v14, main_v15, main_v16, main_v17, main_v18, main_v19, main_c, main_v20, main_v21, main_c_0, main_v22, main_v23, main_v24, main_v25, main_v26, main_cst, main_v27, main_v28, main_v29, main_v30, main_v31, main_v32, main_v33, main_v34, main_v35, main_v36, main_v37, main_v38, main_v39, main_v40, main_cst_1, main_v41, main_v42, main_v43, main_v44, main_v45, main_v46, main_v47, main_v48, main_v49, main_call0_cst, main_call0_v0, main_v50, main_v51, main_v52, main_v53, main_v54, main_call1_cst, main_call1_v0, main_v55]
set_option maxRecDepth 8192 in
set_option maxHeartbeats 4000000 in
theorem opsL0_writes : (opsL0 : List (HloOp τ sig (Elt F))).Forall fun op =>
    op.writes ⊆ (opsL0_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

theorem layer0_keep (V : Valuation τ sig (Elt F)) {r : Ref sig .tc} (h : r ∉ opsL0_W) :
    after (opsL0 (F := F)) V (Proc.devRef .tc r) = V (Proc.devRef .tc r) :=
  after_of_writes_sub opsL0 V opsL0_writes h

set_option maxRecDepth 8192 in
set_option maxHeartbeats 4000000 in
theorem layer0_out (V : Valuation τ sig (Elt Ideal)) (ei : IVec S2x640000 32)
    (h1 : V (Proc.devRef .tc main_v1) = (shapeCast _ (extractStridedSlice S1x640000 ![0, 0] ei slices_S2x640000_S1x640000_0_0) shapeCasts_S1x640000_S640000))
    (h3 : V (Proc.devRef .tc main_v3) = (shapeCast _ (extractStridedSlice S1x640000 ![1, 0] ei slices_S2x640000_S1x640000_1_0) shapeCasts_S1x640000_S640000)) :
    after (opsL0 (F := Ideal)) V (Proc.devRef .tc main_v55)
      = layerH (V (Proc.devRef .tc main_arg0)) ei (w3 0 (V (Proc.devRef .tc main_arg3))) (w2 0 (V (Proc.devRef .tc main_arg4))) (w2 0 (V (Proc.devRef .tc main_arg5))) (w2 0 (V (Proc.devRef .tc main_arg6))) (w2 0 (V (Proc.devRef .tc main_arg7))) (w2 0 (V (Proc.devRef .tc main_arg8))) (w3 0 (V (Proc.devRef .tc main_arg9))) (w2 0 (V (Proc.devRef .tc main_arg10))) := by
  simp only [opsL0]
  after_results_simp
  rw [h1, h3]
  rfl

end Cert.ReferenceIdeal.HandRun

end
-- ==== Proof.RefRunL1.lean ====
import proofs.«428006_j27865747816548_3_alg».proof.Proof.RefRunOps
import proofs.«428006_j27865747816548_3_alg».proof.Proof.RefDefs

noncomputable section

namespace Cert.ReferenceIdeal.HandRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

abbrev opsL1_W : List (Ref sig .tc) := [main_v56, main_v57, main_v58, main_v59, main_v60, main_v61, main_v62, main_v63, main_v64, main_v65, main_v66, main_v67, main_v68, main_v69, main_v70, main_v71, main_c_2, main_v72, main_v73, main_c_3, main_v74, main_v75, main_v76, main_v77, main_v78, main_cst_4, main_v79, main_v80, main_v81, main_v82, main_v83, main_v84, main_v85, main_v86, main_v87, main_v88, main_v89, main_v90, main_v91, main_v92, main_cst_5, main_v93, main_v94, main_v95, main_v96, main_v97, main_v98, main_v99, main_v100, main_v101, main_call2_cst, main_call2_v0, main_v102, main_v103, main_v104, main_v105, main_v106, main_call3_cst, main_call3_v0, main_v107]
set_option maxRecDepth 8192 in
set_option maxHeartbeats 4000000 in
theorem opsL1_writes : (opsL1 : List (HloOp τ sig (Elt F))).Forall fun op =>
    op.writes ⊆ (opsL1_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

theorem layer1_keep (V : Valuation τ sig (Elt F)) {r : Ref sig .tc} (h : r ∉ opsL1_W) :
    after (opsL1 (F := F)) V (Proc.devRef .tc r) = V (Proc.devRef .tc r) :=
  after_of_writes_sub opsL1 V opsL1_writes h

set_option maxRecDepth 8192 in
set_option maxHeartbeats 4000000 in
theorem layer1_out (V : Valuation τ sig (Elt Ideal)) (ei : IVec S2x640000 32)
    (h1 : V (Proc.devRef .tc main_v1) = (shapeCast _ (extractStridedSlice S1x640000 ![0, 0] ei slices_S2x640000_S1x640000_0_0) shapeCasts_S1x640000_S640000))
    (h3 : V (Proc.devRef .tc main_v3) = (shapeCast _ (extractStridedSlice S1x640000 ![1, 0] ei slices_S2x640000_S1x640000_1_0) shapeCasts_S1x640000_S640000)) :
    after (opsL1 (F := Ideal)) V (Proc.devRef .tc main_v107)
      = layerH (V (Proc.devRef .tc main_v55)) ei (w3 1 (V (Proc.devRef .tc main_arg3))) (w2 1 (V (Proc.devRef .tc main_arg4))) (w2 1 (V (Proc.devRef .tc main_arg5))) (w2 1 (V (Proc.devRef .tc main_arg6))) (w2 1 (V (Proc.devRef .tc main_arg7))) (w2 1 (V (Proc.devRef .tc main_arg8))) (w3 1 (V (Proc.devRef .tc main_arg9))) (w2 1 (V (Proc.devRef .tc main_arg10))) := by
  simp only [opsL1]
  after_results_simp
  rw [h1, h3]
  rfl

end Cert.ReferenceIdeal.HandRun

end
-- ==== Proof.RefRunL2.lean ====
import proofs.«428006_j27865747816548_3_alg».proof.Proof.RefRunOps
import proofs.«428006_j27865747816548_3_alg».proof.Proof.RefDefs

noncomputable section

namespace Cert.ReferenceIdeal.HandRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

abbrev opsL2a_W : List (Ref sig .tc) := [main_v108, main_v109, main_v110, main_v111]
set_option maxRecDepth 8192 in
set_option maxHeartbeats 4000000 in
theorem opsL2a_writes : (opsL2a : List (HloOp τ sig (Elt F))).Forall fun op =>
    op.writes ⊆ (opsL2a_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

abbrev opsL2b_W : List (Ref sig .tc) := [main_v112, main_v113, main_v114, main_v115, main_v116, main_v117, main_v118, main_v119, main_v120, main_v121, main_v122, main_v123, main_c_6, main_v124, main_v125, main_c_7, main_v126, main_v127, main_v128, main_v129, main_v130, main_cst_8, main_v131, main_v132, main_v133, main_v134, main_v135, main_v136, main_v137, main_v138, main_v139, main_v140, main_v141, main_v142, main_v143, main_v144, main_cst_9, main_v145, main_v146, main_v147, main_v148, main_v149, main_v150, main_v151, main_v152, main_v153, main_call4_cst, main_call4_v0, main_v154, main_v155, main_v156, main_v157, main_v158, main_call5_cst, main_call5_v0, main_v159]
set_option maxRecDepth 8192 in
set_option maxHeartbeats 4000000 in
theorem opsL2b_writes : (opsL2b : List (HloOp τ sig (Elt F))).Forall fun op =>
    op.writes ⊆ (opsL2b_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

theorem layer2_keep (V : Valuation τ sig (Elt F)) {r : Ref sig .tc} (h : r ∉ opsL2a_W ++ opsL2b_W) :
    after (opsL2b (F := F)) (after (opsL2a (F := F)) V) (Proc.devRef .tc r) = V (Proc.devRef .tc r) :=
  (after_of_writes_sub opsL2b _ opsL2b_writes fun h' => h (List.mem_append_right _ h')).trans
    (after_of_writes_sub opsL2a V opsL2a_writes fun h' => h (List.mem_append_left _ h'))

set_option maxRecDepth 8192 in
set_option maxHeartbeats 4000000 in
theorem layer2_out (V : Valuation τ sig (Elt Ideal)) (ei : IVec S2x640000 32)
    (h1 : V (Proc.devRef .tc main_v1) = (shapeCast _ (extractStridedSlice S1x640000 ![0, 0] ei slices_S2x640000_S1x640000_0_0) shapeCasts_S1x640000_S640000))
    (h3 : V (Proc.devRef .tc main_v3) = (shapeCast _ (extractStridedSlice S1x640000 ![1, 0] ei slices_S2x640000_S1x640000_1_0) shapeCasts_S1x640000_S640000)) :
    after (opsL2b (F := Ideal)) (after (opsL2a (F := Ideal)) V) (Proc.devRef .tc main_v159)
      = layerH (V (Proc.devRef .tc main_v107)) ei (w3 2 (V (Proc.devRef .tc main_arg3))) (w2 2 (V (Proc.devRef .tc main_arg4))) (w2 2 (V (Proc.devRef .tc main_arg5))) (w2 2 (V (Proc.devRef .tc main_arg6))) (w2 2 (V (Proc.devRef .tc main_arg7))) (w2 2 (V (Proc.devRef .tc main_arg8))) (w3 2 (V (Proc.devRef .tc main_arg9))) (w2 2 (V (Proc.devRef .tc main_arg10))) := by
  simp only [opsL2a, opsL2b]
  after_results_simp
  rw [h1, h3]
  rfl

end Cert.ReferenceIdeal.HandRun

end
-- ==== Proof.RefRunL3.lean ====
import proofs.«428006_j27865747816548_3_alg».proof.Proof.RefRunOps
import proofs.«428006_j27865747816548_3_alg».proof.Proof.RefDefs

noncomputable section

namespace Cert.ReferenceIdeal.HandRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

abbrev opsL3a_W : List (Ref sig .tc) := [main_v160, main_v161, main_v162, main_v163, main_v164, main_v165, main_v166, main_v167]
set_option maxRecDepth 8192 in
set_option maxHeartbeats 4000000 in
theorem opsL3a_writes : (opsL3a : List (HloOp τ sig (Elt F))).Forall fun op =>
    op.writes ⊆ (opsL3a_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

abbrev opsL3b_W : List (Ref sig .tc) := [main_v168, main_v169, main_v170, main_v171, main_v172, main_v173, main_v174, main_v175, main_c_10, main_v176, main_v177, main_c_11, main_v178, main_v179, main_v180, main_v181, main_v182, main_cst_12, main_v183, main_v184, main_v185, main_v186, main_v187, main_v188, main_v189, main_v190, main_v191, main_v192, main_v193, main_v194, main_v195, main_v196, main_cst_13, main_v197, main_v198, main_v199, main_v200, main_v201, main_v202, main_v203, main_v204, main_v205, main_call6_cst, main_call6_v0, main_v206, main_v207, main_v208, main_v209, main_v210, main_call7_cst, main_call7_v0, main_v211]
set_option maxRecDepth 8192 in
set_option maxHeartbeats 4000000 in
theorem opsL3b_writes : (opsL3b : List (HloOp τ sig (Elt F))).Forall fun op =>
    op.writes ⊆ (opsL3b_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

theorem layer3_keep (V : Valuation τ sig (Elt F)) {r : Ref sig .tc} (h : r ∉ opsL3a_W ++ opsL3b_W) :
    after (opsL3b (F := F)) (after (opsL3a (F := F)) V) (Proc.devRef .tc r) = V (Proc.devRef .tc r) :=
  (after_of_writes_sub opsL3b _ opsL3b_writes fun h' => h (List.mem_append_right _ h')).trans
    (after_of_writes_sub opsL3a V opsL3a_writes fun h' => h (List.mem_append_left _ h'))

set_option maxRecDepth 8192 in
set_option maxHeartbeats 4000000 in
theorem layer3_out (V : Valuation τ sig (Elt Ideal)) (ei : IVec S2x640000 32)
    (h1 : V (Proc.devRef .tc main_v1) = (shapeCast _ (extractStridedSlice S1x640000 ![0, 0] ei slices_S2x640000_S1x640000_0_0) shapeCasts_S1x640000_S640000))
    (h3 : V (Proc.devRef .tc main_v3) = (shapeCast _ (extractStridedSlice S1x640000 ![1, 0] ei slices_S2x640000_S1x640000_1_0) shapeCasts_S1x640000_S640000)) :
    after (opsL3b (F := Ideal)) (after (opsL3a (F := Ideal)) V) (Proc.devRef .tc main_v211)
      = layerH (V (Proc.devRef .tc main_v159)) ei (w3 3 (V (Proc.devRef .tc main_arg3))) (w2 3 (V (Proc.devRef .tc main_arg4))) (w2 3 (V (Proc.devRef .tc main_arg5))) (w2 3 (V (Proc.devRef .tc main_arg6))) (w2 3 (V (Proc.devRef .tc main_arg7))) (w2 3 (V (Proc.devRef .tc main_arg8))) (w3 3 (V (Proc.devRef .tc main_arg9))) (w2 3 (V (Proc.devRef .tc main_arg10))) := by
  simp only [opsL3a, opsL3b]
  after_results_simp
  rw [h1, h3]
  rfl

end Cert.ReferenceIdeal.HandRun

end
-- ==== Proof.RefRunL4.lean ====
import proofs.«428006_j27865747816548_3_alg».proof.Proof.RefRunOps
import proofs.«428006_j27865747816548_3_alg».proof.Proof.RefDefs

noncomputable section

namespace Cert.ReferenceIdeal.HandRun

open Cert.ReferenceIdeal Cert.ReferenceIdeal.Gen Cert.ReferenceIdeal.RefValue Idealize.ShloMosaic Idealize.ShloMosaic.TcCoe Idealize.SL.Sem Idealize.ShloMosaic.StableHlo

variable {F : FTy → Type} [FloatOps F]

abbrev opsL4a_W : List (Ref sig .tc) := [main_v212, main_v213, main_v214, main_v215, main_v216, main_v217, main_v218, main_v219, main_v220, main_v221, main_v222, main_v223]
set_option maxRecDepth 8192 in
set_option maxHeartbeats 4000000 in
theorem opsL4a_writes : (opsL4a : List (HloOp τ sig (Elt F))).Forall fun op =>
    op.writes ⊆ (opsL4a_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

abbrev opsL4b_W : List (Ref sig .tc) := [main_v224, main_v225, main_v226, main_v227, main_c_14, main_v228, main_v229, main_c_15, main_v230, main_v231, main_v232, main_v233, main_v234, main_cst_16, main_v235, main_v236, main_v237, main_v238, main_v239, main_v240, main_v241, main_v242, main_v243, main_v244, main_v245, main_v246, main_v247, main_v248, main_cst_17, main_v249, main_v250, main_v251, main_v252, main_v253, main_v254, main_v255, main_v256, main_v257, main_call8_cst, main_call8_v0, main_v258, main_v259, main_v260, main_v261, main_v262, main_call9_cst, main_call9_v0, main_v263]
set_option maxRecDepth 8192 in
set_option maxHeartbeats 4000000 in
theorem opsL4b_writes : (opsL4b : List (HloOp τ sig (Elt F))).Forall fun op =>
    op.writes ⊆ (opsL4b_W.map (Proc.devRef (τ := τ) .tc)).toFinset := by
  simp only [List.Forall]; repeat' apply And.intro
  all_goals
    simp only [nullary_writes, unary_writes, binary_writes, ternary_writes, reshape_writes, Finset.singleton_subset_iff, List.mem_toFinset]
    exact List.mem_map_of_mem (by decide)

theorem layer4_keep (V : Valuation τ sig (Elt F)) {r : Ref sig .tc} (h : r ∉ opsL4a_W ++ opsL4b_W) :
    after (opsL4b (F := F)) (after (opsL4a (F := F)) V) (Proc.devRef .tc r) = V (Proc.devRef .tc r) :=
  (after_of_writes_sub opsL4b _ opsL4b_writes fun h' => h (List.mem_append_right _ h')).trans
    (after_of_writes_sub opsL4a V opsL4a_writes fun h' => h (List.mem_append_left _ h'))

set_option maxRecDepth 8192 in
set_option maxHeartbeats 4000000 in
theorem layer4_out (V : Valuation τ sig (Elt Ideal)) (ei : IVec S2x640000 32)
    (h1 : V (Proc.devRef .tc main_v1) = (shapeCast _ (extractStridedSlice S1x640000 ![0, 0] ei slices_S2x640000_S1x640000_0_0) shapeCasts_S1x640000_S640000))
    (h3 : V (Proc.devRef .tc main_v3) = (shapeCast _ (extractStridedSlice S1x640000 ![1, 0] ei slices_S2x640000_S1x640000_1_0) shapeCasts_S1x640000_S640000)) :
    after (opsL4b (F := Ideal)) (after (opsL4a (F := Ideal)) V) (Proc.devRef .tc main_v263)
      = layerH (V (Proc.devRef .tc main_v211)) ei (w3 4 (V (Proc.devRef .tc main_arg3))) (w2 4 (V (Proc.devRef .tc main_arg4))) (w2 4 (V (Proc.devRef .tc main_arg5))) (w2 4 (V (Proc.devRef .tc main_arg6))) (w2 4 (V (Proc.devRef .tc main_arg7))) (w2 4 (V (Proc.devRef .tc main_arg8))) (w3 4 (V (Proc.devRef .tc main_arg9))) (w2 4 (V (Proc.devRef .tc main_arg10))) := by
  simp only [opsL4a, opsL4b]
  after_results_simp
  rw [h1, h3]
  rfl

end Cert.ReferenceIdeal.HandRun

end
-- ==== Proof.RefRunHand.lean ====
import proofs.«428006_j27865747816548_3_alg».proof.Proof.RefRunMain
import proofs.«428006_j27865747816548_3_alg».proof.Proof.RefRunEnds
import proofs.«428006_j27865747816548_3_alg».proof.Proof.RefRunL0
import proofs.«428006_j27865747816548_3_alg».proof.Proof.RefRunL1
import proofs.«428006_j27865747816548_3_alg».proof.Proof.RefRunL2
import proofs.«428006_j27865747816548_3_alg».proof.Proof.RefRunL3
import proofs.«428006_j27865747816548_3_alg».proof.Proof.RefRunL4

set_option maxRecDepth 8192

noncomputable section

namespace Cert.ReferenceIdeal.HandRun

open Cert.ReferenceIdeal Cert.ReferenceIdeal.Gen Cert.ReferenceIdeal.RefValue Idealize.ShloMosaic Idealize.ShloMosaic.TcCoe Idealize.SL.Sem Idealize.ShloMosaic.StableHlo

abbrev argRefs : List (Ref sig .tc) := [main_arg0, main_arg1, main_arg2, main_arg3, main_arg4, main_arg5, main_arg6, main_arg7, main_arg8, main_arg9, main_arg10, main_arg11, main_arg12, main_arg13, main_arg14]

variable (m : (ℓ : Loc nD τ sig) → Buf (Elt Ideal) ℓ) (c : Dev nD)

structure Carried (V : Valuation τ sig (Elt Ideal)) : Prop where
  args : ∀ r ∈ argRefs, V (Proc.devRef .tc r) = m ((c.tc : Thread nD τ).loc r)
  src : V (Proc.devRef .tc main_v1) = (shapeCast _ (extractStridedSlice S1x640000 ![0, 0] (m ((c.tc : Thread nD τ).loc main_arg1)) slices_S2x640000_S1x640000_0_0) shapeCasts_S1x640000_S640000)
  dst : V (Proc.devRef .tc main_v3) = (shapeCast _ (extractStridedSlice S1x640000 ![1, 0] (m ((c.tc : Thread nD τ).loc main_arg1)) slices_S2x640000_S1x640000_1_0) shapeCasts_S1x640000_S640000)

variable {m c} in
theorem Carried.keep {V V' : Valuation τ sig (Elt Ideal)} (W : List (Ref sig .tc))
    (hk : ∀ {r : Ref sig .tc}, r ∉ W → V' (Proc.devRef .tc r) = V (Proc.devRef .tc r))
    (hW : ∀ r ∈ argRefs ++ [main_v1, main_v3], r ∉ W) (h : Carried m c V) : Carried m c V' :=
  ⟨fun r hr => (hk (hW r (List.mem_append_left _ hr))).trans (h.args r hr),
    (hk (hW main_v1 (by decide))).trans h.src, (hk (hW main_v3 (by decide))).trans h.dst⟩

def val1 : Valuation τ sig (Elt Ideal) := after opsIds (launchContents m c)

def val2 : Valuation τ sig (Elt Ideal) := after opsL0 (val1 m c)

def val3 : Valuation τ sig (Elt Ideal) := after opsL1 (val2 m c)

def val4 : Valuation τ sig (Elt Ideal) := after opsL2b (after opsL2a (val3 m c))

def val5 : Valuation τ sig (Elt Ideal) := after opsL3b (after opsL3a (val4 m c))

def val6 : Valuation τ sig (Elt Ideal) := after opsL4b (after opsL4a (val5 m c))

theorem after_all : after opsAll (launchContents m c) = after opsHead (val6 m c) := after_opsAll _

theorem carried1 : Carried m c (val1 m c) :=
  ⟨fun r hr => ids_keep (launchContents m c) ((by decide : ∀ r ∈ argRefs, r ∉ opsIds_W) r hr),
    ids_v1 (launchContents m c), ids_v3 (launchContents m c)⟩
theorem carried2 : Carried m c (val2 m c) :=
  (carried1 m c).keep (opsL0_W) (fun h => layer0_keep _ h) (by decide)
theorem carried3 : Carried m c (val3 m c) :=
  (carried2 m c).keep (opsL1_W) (fun h => layer1_keep _ h) (by decide)
theorem carried4 : Carried m c (val4 m c) :=
  (carried3 m c).keep (opsL2a_W ++ opsL2b_W) (fun h => layer2_keep _ h) (by decide)
theorem carried5 : Carried m c (val5 m c) :=
  (carried4 m c).keep (opsL3a_W ++ opsL3b_W) (fun h => layer3_keep _ h) (by decide)
theorem carried6 : Carried m c (val6 m c) :=
  (carried5 m c).keep (opsL4a_W ++ opsL4b_W) (fun h => layer4_keep _ h) (by decide)

variable {m c} in
-- With the arguments carried, a layer applied to a value known to be `x` is layer `l` of `x`.
theorem Carried.layer {V : Valuation τ sig (Elt Ideal)} (hC : Carried m c V) (l : Fin 5) {y x : FVec Ideal S20000x128 .f32} (hx : y = x) :
    layerH y (m ((c.tc : Thread nD τ).loc main_arg1)) (w3 l (V (Proc.devRef .tc main_arg3))) (w2 l (V (Proc.devRef .tc main_arg4))) (w2 l (V (Proc.devRef .tc main_arg5))) (w2 l (V (Proc.devRef .tc main_arg6))) (w2 l (V (Proc.devRef .tc main_arg7))) (w2 l (V (Proc.devRef .tc main_arg8))) (w3 l (V (Proc.devRef .tc main_arg9))) (w2 l (V (Proc.devRef .tc main_arg10)))
      = L m c l x := by
  rw [hx, hC.args main_arg3 (by decide), hC.args main_arg4 (by decide), hC.args main_arg5 (by decide), hC.args main_arg6 (by decide), hC.args main_arg7 (by decide), hC.args main_arg8 (by decide), hC.args main_arg9 (by decide), hC.args main_arg10 (by decide)]
  rfl

theorem out2 : val2 m c (Proc.devRef .tc main_v55) = L m c 0 (m ((c.tc : Thread nD τ).loc main_arg0)) :=
  (layer0_out _ _ (carried1 m c).src (carried1 m c).dst).trans ((carried1 m c).layer 0 ((carried1 m c).args main_arg0 (by decide)))

theorem out3 : val3 m c (Proc.devRef .tc main_v107) = L m c 1 (L m c 0 (m ((c.tc : Thread nD τ).loc main_arg0))) :=
  (layer1_out _ _ (carried2 m c).src (carried2 m c).dst).trans ((carried2 m c).layer 1 (out2 m c))

theorem out4 : val4 m c (Proc.devRef .tc main_v159) = L m c 2 (L m c 1 (L m c 0 (m ((c.tc : Thread nD τ).loc main_arg0)))) :=
  (layer2_out _ _ (carried3 m c).src (carried3 m c).dst).trans ((carried3 m c).layer 2 (out3 m c))

theorem out5 : val5 m c (Proc.devRef .tc main_v211) = L m c 3 (L m c 2 (L m c 1 (L m c 0 (m ((c.tc : Thread nD τ).loc main_arg0))))) :=
  (layer3_out _ _ (carried4 m c).src (carried4 m c).dst).trans ((carried4 m c).layer 3 (out4 m c))

theorem out6 : val6 m c (Proc.devRef .tc main_v263) = L m c 4 (L m c 3 (L m c 2 (L m c 1 (L m c 0 (m ((c.tc : Thread nD τ).loc main_arg0)))))) :=
  (layer4_out _ _ (carried5 m c).src (carried5 m c).dst).trans ((carried5 m c).layer 4 (out5 m c))

theorem arg_final (r : Ref sig .tc) (hr : r ∈ argRefs) : after opsAll (launchContents m c) (Proc.devRef .tc r) = m ((c.tc : Thread nD τ).loc r) := by
  rw [after_all]
  exact (head_keep _ ((by decide : ∀ r ∈ argRefs, r ∉ opsHead_W) r hr)).trans ((carried6 m c).args r hr)

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v276) = headH (m ((c.tc : Thread nD τ).loc main_arg2)) (L m c 4 (L m c 3 (L m c 2 (L m c 1 (L m c 0 (m ((c.tc : Thread nD τ).loc main_arg0))))))) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
    have a (r : Ref sig .tc) (hr : r ∈ argRefs) : _ = m ((c.tc : Thread nD τ).loc r) := (h c r).trans (arg_final m c r hr)
    ⟨(h c main_v276).trans (((congrFun (after_all m c) _).trans (head_out _)).trans (by
        rw [out6 m c, (carried6 m c).args main_arg2 (by decide), (carried6 m c).args main_arg11 (by decide), (carried6 m c).args main_arg12 (by decide),
          (carried6 m c).args main_arg13 (by decide), (carried6 m c).args main_arg14 (by decide)])), a main_arg0 (by decide), a main_arg1 (by decide), a main_arg2 (by decide),
      a main_arg3 (by decide), a main_arg4 (by decide), a main_arg5 (by decide), a main_arg6 (by decide), a main_arg7 (by decide),
      a main_arg8 (by decide), a main_arg9 (by decide), a main_arg10 (by decide), a main_arg11 (by decide), a main_arg12 (by decide),
      a main_arg13 (by decide), a main_arg14 (by decide)⟩)
    (base m ρ)

end Cert.ReferenceIdeal.HandRun

end
-- ==== Proof.Spec.lean ====
import Idealize.ShloMosaic.PureOps.Ideal
import Idealize.ShloMosaic.Lib.ValueIdx

noncomputable section

namespace Cert.Spec

open Idealize.ShloMosaic

def eps : EReal := Ideal.ofBits .f32 0x3727C5AC#32

def hid (h agg : Fin 20000 → Fin 128 → EReal) (W1 : Fin 128 → Fin 128 → EReal) (b1 g bt mu v : Fin 128 → EReal)
    (r : Fin 20000) (k : Fin 128) : EReal :=
  max (g k * (((∑ j : Fin 128, (h r j + agg r j) * W1 j k) + b1 k) - mu k) * Ideal.rsqrt (v k + eps) + bt k) 0

def layer (h agg : Fin 20000 → Fin 128 → EReal) (W1 : Fin 128 → Fin 128 → EReal) (b1 g bt mu v : Fin 128 → EReal)
    (W2 : Fin 128 → Fin 128 → EReal) (b2 : Fin 128 → EReal) : Fin 20000 → Fin 128 → EReal := fun r c =>
  max ((∑ k : Fin 128, hid h agg W1 b1 g bt mu v r k * W2 k c) + b2 c) 0

def pool (b : Fin 20000 → BitVec 32) (h : Fin 20000 → Fin 128 → EReal) : Fin 128 → Fin 128 → EReal := fun g d =>
  ∑ n : Fin 20000, (if b n = BitVec.ofNat 32 g.val then (1 : EReal) else 0) * h n d

def head1 (p : Fin 128 → Fin 128 → EReal) (l1W : Fin 128 → Fin 128 → EReal) (l1b : Fin 128 → EReal) :
    Fin 128 → Fin 128 → EReal := fun g k =>
  max ((∑ d : Fin 128, p g d * l1W d k) + l1b k) 0

def logits (p : Fin 128 → Fin 128 → EReal) (l1W : Fin 128 → Fin 128 → EReal) (l1b : Fin 128 → EReal)
    (l2W : Fin 128 → Fin 10 → EReal) (l2b : Fin 10 → EReal) : Fin 128 → Fin 10 → EReal := fun g o =>
  (∑ k : Fin 128, head1 p l1W l1b g k * l2W k o) + l2b o

def rowMax (x : Fin 10 → EReal) : EReal := (Finset.univ : Finset (Fin 10)).fold max ⊥ x

def logSoftmax (x : Fin 128 → Fin 10 → EReal) : Fin 128 → Fin 10 → EReal := fun g o =>
  (x g o - rowMax (x g)) - Ideal.log (∑ o' : Fin 10, Ideal.exp (x g o' - rowMax (x g)))

def head (p : Fin 128 → Fin 128 → EReal) (l1W : Fin 128 → Fin 128 → EReal) (l1b : Fin 128 → EReal)
    (l2W : Fin 128 → Fin 10 → EReal) (l2b : Fin 10 → EReal) : Fin 128 → Fin 10 → EReal :=
  logSoftmax (logits p l1W l1b l2W l2b)

def cur2 {a b : Nat} (f : (⟨2, ![a, b]⟩ : Shape).Idx → EReal) : Fin a → Fin b → EReal :=
  fun p q => f (ValueIdx.ix2 p q)

def row {b : Nat} (f : (⟨2, ![1, b]⟩ : Shape).Idx → EReal) : Fin b → EReal :=
  fun q => f (ValueIdx.ix2 0 q)

def slab3 {a b : Nat} (f : (⟨3, ![5, a, b]⟩ : Shape).Idx → EReal) (l : Fin 5) : Fin a → Fin b → EReal :=
  fun p q => f (ValueIdx.ix3 l p q)

def slab2 {b : Nat} (f : (⟨2, ![5, b]⟩ : Shape).Idx → EReal) (l : Fin 5) : Fin b → EReal :=
  fun q => f (ValueIdx.ix2 l q)

def cur1 {α : Type} {a : Nat} (f : (⟨1, ![a]⟩ : Shape).Idx → α) : Fin a → α :=
  fun p => f (ValueIdx.ix1 p)

def unc2 {a b : Nat} (f : Fin a → Fin b → EReal) : (⟨2, ![a, b]⟩ : Shape).Idx → EReal :=
  fun i => f (i 0) (i 1)

theorem cur2_unc2 {a b : Nat} (f : Fin a → Fin b → EReal) : cur2 (unc2 f) = f := rfl

theorem unc2_cur2 {a b : Nat} (g : (⟨2, ![a, b]⟩ : Shape).Idx → EReal) : unc2 (cur2 g) = g := by
  funext i
  exact congrArg g (ValueIdx.eq_ix2 i).symm

def total (aggOf : (Fin 20000 → Fin 128 → EReal) → Fin 20000 → Fin 128 → EReal)
    (x : Fin 20000 → Fin 128 → EReal) (b : Fin 20000 → BitVec 32)
    (W1s : Fin 5 → Fin 128 → Fin 128 → EReal) (b1s gs bts mus vs : Fin 5 → Fin 128 → EReal)
    (W2s : Fin 5 → Fin 128 → Fin 128 → EReal) (b2s : Fin 5 → Fin 128 → EReal)
    (l1W : Fin 128 → Fin 128 → EReal) (l1b : Fin 128 → EReal) (l2W : Fin 128 → Fin 10 → EReal) (l2b : Fin 10 → EReal) :
    Fin 128 → Fin 10 → EReal :=
  let L (l : Fin 5) (h : Fin 20000 → Fin 128 → EReal) : Fin 20000 → Fin 128 → EReal :=
    layer h (aggOf h) (W1s l) (b1s l) (gs l) (bts l) (mus l) (vs l) (W2s l) (b2s l)
  head (pool b (L 4 (L 3 (L 2 (L 1 (L 0 x)))))) l1W l1b l2W l2b

end Cert.Spec

end
-- ==== Proof.KIHost.lean ====
import proofs.«428006_j27865747816548_3_alg».proof.Proof.Gen.KernelIdeal.Launch
import proofs.«428006_j27865747816548_3_alg».proof.Proof.Spec
import Idealize.ShloMosaic.Lib.StableHlo.Run
import Idealize.ShloMosaic.Lib.ValueLayout

noncomputable section

namespace Cert.KernelIdeal.HandValue

open Cert.KernelIdeal Cert.KernelIdeal.Gen Cert.Spec
open Idealize.ShloMosaic Idealize.ShloMosaic.TcCoe Idealize.ShloMosaic.ValueIdx Idealize.ShloMosaic.StableHlo

def srcRow (ei : IVec S2x640000 32) : IVec S640000 32 :=
  shapeCast _ (extractStridedSlice S1x640000 ![0, 0] ei slices_S2x640000_S1x640000_0_0) shapeCasts_S1x640000_S640000

def dstRow (ei : IVec S2x640000 32) : IVec S640000 32 :=
  shapeCast _ (extractStridedSlice S1x640000 ![1, 0] ei slices_S2x640000_S1x640000_1_0) shapeCasts_S1x640000_S640000

/-- The neighbour sum: negative source ids wrap by the row count, and gathered row `e` of `h` is added into row `dst e` of zero. -/
def aggK' (h : FVec Ideal S20000x128 .f32) (src dst : IVec S640000 32) : FVec Ideal S20000x128 .f32 :=
  Host.scatterAdd (F := Ideal) scatter_S20000x128_S640000x1_S640000x128_1_0_0_1
    (broadcastInDim S20000x128 ![] bcast_S_S20000x128 (constant (F := Ideal) S_ .f32 0x00000000#32))
    (broadcastInDim S640000x1 ![0] bcast_S640000_S640000x1_0 dst)
    (Host.gather gather_S20000x128_S640000x1_S640000x128_1_0_n_n_0_1_1128 h
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 20000#32)))
          src)))

def aggK (h : FVec Ideal S20000x128 .f32) (ei : IVec S2x640000 32) : FVec Ideal S20000x128 .f32 :=
  aggK' h (srcRow ei) (dstRow ei)

theorem sl3 : ∀ l : Fin 5, S5x128x128.Slices ![l.val, 0, 0] S1x128x128 := by decide

theorem sl2 : ∀ l : Fin 5, S5x128.Slices ![l.val, 0] S1x128 := by decide

def cut3 (l : Fin 5) (x : FVec Ideal S5x128x128 .f32) : FVec Ideal S128x128 .f32 :=
  shapeCast _ (extractStridedSlice S1x128x128 ![l.val, 0, 0] x (sl3 l)) shapeCasts_S1x128x128_S128x128

def cut2 (l : Fin 5) (x : FVec Ideal S5x128 .f32) : FVec Ideal S1x128 .f32 :=
  shapeCast _ (shapeCast _ (extractStridedSlice S1x128 ![l.val, 0] x (sl2 l)) shapeCasts_S1x128_S128) shapeCasts_S128_S1x128

theorem cut3_read (l : Fin 5) (x : FVec Ideal S5x128x128 .f32) : cur2 (cut3 l x) = slab3 x l := by
  funext p q
  exact (shapeCast_1ab_ab_apply _ _ p q).trans (extractStridedSlice_apply _ x _ _ (ix3 l p q) fun a => match a with
    | ⟨0, _⟩ => rfl
    | ⟨1, _⟩ => (Nat.zero_add _).symm
    | ⟨2, _⟩ => (Nat.zero_add _).symm)

theorem cut2_read (l : Fin 5) (x : FVec Ideal S5x128 .f32) : row (cut2 l x) = slab2 x l := by
  funext q
  exact (shapeCast_a_1a_apply _ _ 0 q).trans ((shapeCast_1a_a_apply _ _ q).trans (slice2_axis0_apply _ x _ 0 q l rfl))

def layerK (h agg : FVec Ideal S20000x128 .f32) (w1 : FVec Ideal S128x128 .f32) (b1 g bt mu v : FVec Ideal S1x128 .f32)
    (w2 : FVec Ideal S128x128 .f32) (b2 : FVec Ideal S1x128 .f32) : Fin 20000 → Fin 128 → EReal :=
  layer (cur2 h) (cur2 agg) (cur2 w1) (row b1) (row g) (row bt) (row mu) (row v) (cur2 w2) (row b2)

/-- Layer `l`'s ten inputs, formed from the features, the two id rows and the stacked parameters. -/
def stepK (l : Fin 5) (h : FVec Ideal S20000x128 .f32) (src dst : IVec S640000 32) (A3 : FVec Ideal S5x128x128 .f32)
    (A4 A5 A6 A7 A8 : FVec Ideal S5x128 .f32) (A9 : FVec Ideal S5x128x128 .f32) (A10 : FVec Ideal S5x128 .f32) :=
  layerK h (aggK' h src dst) (cut3 l A3) (cut2 l A4) (cut2 l A5) (cut2 l A6) (cut2 l A7) (cut2 l A8) (cut3 l A9) (cut2 l A10)

variable (W : Valuation τ sig (Elt Ideal))

/-- The same, the id rows and the stacks read off a valuation. -/
def stepW (l : Fin 5) (h : FVec Ideal S20000x128 .f32) :=
  stepK l h (W main_v1) (W main_v3) (W main_arg3) (W main_arg4) (W main_arg5) (W main_arg6) (W main_arg7) (W main_arg8) (W main_arg9) (W main_arg10)

/-- Layer `l` of the network over the arguments a valuation holds. -/
def Lk (l : Fin 5) (H : Fin 20000 → Fin 128 → EReal) : Fin 20000 → Fin 128 → EReal :=
  layer H (cur2 (aggK (unc2 H) (W main_arg1))) (slab3 (W main_arg3) l) (slab2 (W main_arg4) l) (slab2 (W main_arg5) l)
    (slab2 (W main_arg6) l) (slab2 (W main_arg7) l) (slab2 (W main_arg8) l) (slab3 (W main_arg9) l) (slab2 (W main_arg10) l)

def headK (ids : IVec S20000x1 32) (h : FVec Ideal S20000x128 .f32) (w1 : FVec Ideal S128x128 .f32) (b1 : FVec Ideal S1x128 .f32)
    (w2 : FVec Ideal S128x10 .f32) (b2 : FVec Ideal S1x10 .f32) : Fin 128 → Fin 10 → EReal :=
  head (pool (fun n : Fin 20000 => ids (ix2 n (0 : Fin 1))) (cur2 h)) (cur2 w1) (row b1) (cur2 w2) (row b2)

/-- What each of the six regions finds at its inputs, read off a valuation. -/
def ops0 := layerK (W main_arg0) (W main_v13) (W main_v15) (W main_v30) (W main_v31) (W main_v32) (W main_v33) (W main_v34) (W main_v27) (W main_v35)
def ops1 := layerK (W main_v36) (W main_v46) (W main_v48) (W main_v63) (W main_v64) (W main_v65) (W main_v66) (W main_v67) (W main_v60) (W main_v68)
def ops2 := layerK (W main_v69) (W main_v79) (W main_v81) (W main_v96) (W main_v97) (W main_v98) (W main_v99) (W main_v100) (W main_v93) (W main_v101)
def ops3 := layerK (W main_v102) (W main_v112) (W main_v114) (W main_v129) (W main_v130) (W main_v131) (W main_v132) (W main_v133) (W main_v126) (W main_v134)
def ops4 := layerK (W main_v135) (W main_v145) (W main_v147) (W main_v162) (W main_v163) (W main_v164) (W main_v165) (W main_v166) (W main_v159) (W main_v167)
def ops5 := headK (W main_v169) (W main_v168) (W main_arg11) (W main_v170) (W main_arg13) (W main_v171)

theorem stretch0 : ops0 (after hostOps0 W) = stepW (after hostOps0 W) 0 (W main_arg0) := by
  unfold ops0 stepW stepK; after_results_simp; rfl

theorem stretch1 : ops1 (after hostOps1 W) = stepW W 1 (W main_v36) := by
  unfold ops1 stepW stepK; after_results_simp; rfl

theorem stretch2 : ops2 (after hostOps2 W) = stepW W 2 (W main_v69) := by
  unfold ops2 stepW stepK; after_results_simp; rfl

theorem stretch3 : ops3 (after hostOps3 W) = stepW W 3 (W main_v102) := by
  unfold ops3 stepW stepK; after_results_simp; rfl

theorem stretch4 : ops4 (after hostOps4 W) = stepW W 4 (W main_v135) := by
  unfold ops4 stepW stepK; after_results_simp; rfl

/-- After the first stretch the id rows are the edge list's two rows and every argument is as before. -/
theorem stepW_host0 (l : Fin 5) (h : FVec Ideal S20000x128 .f32) : stepW (after hostOps0 W) l h = Lk W l (cur2 h) := by
  unfold stepW stepK layerK Lk
  simp only [cut3_read, cut2_read, unc2_cur2]
  after_results_simp
  rfl

theorem row_read {b : Nat} (x : (⟨1, ![b]⟩ : Shape).Idx → EReal) (h : (⟨1, ![b]⟩ : Shape).ShapeCasts ⟨2, ![1, b]⟩) :
    row (shapeCast ⟨2, ![1, b]⟩ x h) = cur1 x :=
  funext (shapeCast_a_1a_apply x h 0)

theorem col_read (x : IVec S20000 32) :
    (fun n : Fin 20000 => shapeCast S20000x1 x shapeCasts_S20000_S20000x1 (ix2 n (0 : Fin 1))) = cur1 x := by
  funext n
  refine shapeCast_apply _ _ _ (ix1 n) ?_
  rw [Shape.rowMajor_val_one, Shape.rowMajor_val_two]
  exact (Nat.mul_one _).symm

theorem stretch5 : ops5 (after hostOps5 W)
    = head (pool (cur1 (W main_arg2)) (cur2 (W main_v168))) (cur2 (W main_arg11)) (cur1 (W main_arg12)) (cur2 (W main_arg13)) (cur1 (W main_arg14)) := by
  unfold ops5 headK; after_results_simp
  exact (row_read (W main_arg14) shapeCasts_S10_S1x10) ▸ (row_read (W main_arg12) shapeCasts_S128_S1x128) ▸ (col_read (W main_arg2)) ▸ rfl

end Cert.KernelIdeal.HandValue

end
-- ==== Proof.KIChain.lean ====
import proofs.«428006_j27865747816548_3_alg».proof.Proof.Gen.KernelIdeal.Regions
import proofs.«428006_j27865747816548_3_alg».proof.Proof.KIHost

noncomputable section

namespace Cert.KernelIdeal.HandValue

open Cert.KernelIdeal Cert.KernelIdeal.Gen Cert.Spec
open Idealize.ShloMosaic Idealize.ShloMosaic.TcCoe

section Chain

variable (m : (ℓ : Loc nD τ sig) → Buf (Elt Ideal) ℓ) (outs : Gen.Outs (F := Ideal)) (c : Dev nD)

/-- What the later stretches read and nothing after the first stretch writes. -/
noncomputable def keep : List (Ref sig .tc) := [main_v1, main_v3, main_arg2, main_arg3, main_arg4, main_arg5, main_arg6, main_arg7, main_arg8,
  main_arg9, main_arg10, main_arg11, main_arg12, main_arg13, main_arg14]

theorem keep_free : ∀ r ∈ keep, r ∉ ([main_v36] : List (Ref sig .tc)) ∧ r ∉ hostOps1_W ∧ r ∉ ([main_v69] : List (Ref sig .tc))
    ∧ r ∉ hostOps2_W ∧ r ∉ ([main_v102] : List (Ref sig .tc)) ∧ r ∉ hostOps3_W ∧ r ∉ ([main_v135] : List (Ref sig .tc))
    ∧ r ∉ hostOps4_W ∧ r ∉ ([main_v168] : List (Ref sig .tc)) := by decide

theorem back (r : Ref sig .tc) (hr : r ∈ keep) : V2 m outs c r = V1 m c r ∧ V4 m outs c r = V1 m c r ∧ V6 m outs c r = V1 m c r
    ∧ V8 m outs c r = V1 m c r ∧ V10 m outs c r = V1 m c r := by
  obtain ⟨a1, a2, a3, a4, a5, a6, a7, a8, a9⟩ := keep_free r hr
  have e2 := V2_of m outs c r a1
  have e4 := (V4_of m outs c r a3).trans ((V3_of m outs c r a2).trans e2)
  have e6 := (V6_of m outs c r a5).trans ((V5_of m outs c r a4).trans e4)
  have e8 := (V8_of m outs c r a7).trans ((V7_of m outs c r a6).trans e6)
  exact ⟨e2, e4, e6, e8, (V10_of m outs c r a9).trans ((V9_of m outs c r a8).trans e8)⟩

/-- The layer of what a stretch forms, from a valuation that agrees with the first stretch's on `keep`, is layer `l` of the network. -/
theorem link (W : Valuation τ sig (Elt Ideal)) (hW : ∀ r ∈ keep, W r = V1 m c r) (l : Fin 5) (h out : FVec Ideal S20000x128 .f32)
    (X : Fin 20000 → Fin 128 → EReal) (ho : out = unc2 (stepW W l h)) (hi : cur2 h = X) : cur2 out = Lk (V0 m c) l X := by
  have e : stepW W l h = stepW (V1 m c) l h := by
    unfold stepW; congr 1 <;> exact hW _ (by decide)
  rw [ho, cur2_unc2, e, ← hi]
  exact stepW_host0 (V0 m c) l h

theorem total_of_chain (h2 : V2 m outs c main_v36 = unc2 (ops0 (V1 m c))) (h4 : V4 m outs c main_v69 = unc2 (ops1 (V3 m outs c)))
    (h6 : V6 m outs c main_v102 = unc2 (ops2 (V5 m outs c))) (h8 : V8 m outs c main_v135 = unc2 (ops3 (V7 m outs c)))
    (h10 : V10 m outs c main_v168 = unc2 (ops4 (V9 m outs c))) (h12 : V12 m outs c main_v172 = unc2 (ops5 (V11 m outs c))) :
    V12 m outs c main_v172 = unc2 (total (fun h => cur2 (aggK (unc2 h) (V0 m c main_arg1))) (cur2 (V0 m c main_arg0)) (cur1 (V0 m c main_arg2)) (slab3 (V0 m c main_arg3))
      (slab2 (V0 m c main_arg4)) (slab2 (V0 m c main_arg5)) (slab2 (V0 m c main_arg6)) (slab2 (V0 m c main_arg7)) (slab2 (V0 m c main_arg8)) (slab3 (V0 m c main_arg9)) (slab2 (V0 m c main_arg10))
      (cur2 (V0 m c main_arg11)) (cur1 (V0 m c main_arg12)) (cur2 (V0 m c main_arg13)) (cur1 (V0 m c main_arg14))) := by
  have k := back m outs c
  have s1 := link m c (V1 m c) (fun _ _ => rfl) 0 _ _ _ (h2.trans (congrArg unc2 (stretch0 (V0 m c)))) rfl
  have s2 := link m c (V2 m outs c) (fun r hr => (k r hr).1) 1 _ _ _ (h4.trans (congrArg unc2 (stretch1 _))) s1
  have s3 := link m c (V4 m outs c) (fun r hr => (k r hr).2.1) 2 _ _ _ (h6.trans (congrArg unc2 (stretch2 _))) s2
  have s4 := link m c (V6 m outs c) (fun r hr => (k r hr).2.2.1) 3 _ _ _ (h8.trans (congrArg unc2 (stretch3 _))) s3
  have s5 := link m c (V8 m outs c) (fun r hr => (k r hr).2.2.2.1) 4 _ _ _ (h10.trans (congrArg unc2 (stretch4 _))) s4
  have a : ∀ r ∈ keep, r ∉ hostOps0_W → V10 m outs c r = V0 m c r := fun r hr h0 => (k r hr).2.2.2.2.trans (V1_of m c r h0)
  rw [h12]
  refine congrArg unc2 ((stretch5 (V10 m outs c)).trans ?_)
  rw [s5, a main_arg2 (by decide) (by decide), a main_arg11 (by decide) (by decide), a main_arg12 (by decide) (by decide),
    a main_arg13 (by decide) (by decide), a main_arg14 (by decide) (by decide)]
  rfl

end Chain

end Cert.KernelIdeal.HandValue

end
-- ==== Proof.KIValA0.lean ====
import proofs.«428006_j27865747816548_3_alg».proof.Proof.KIA0
import proofs.«428006_j27865747816548_3_alg».proof.Proof.Spec
import Idealize.ShloMosaic.Lib.StackMember
import Idealize.ShloMosaic.Lib.ValueLayout

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx

-- The contraction runs over one axis, so the sum over it is a sum over `Fin 128`.
theorem matmul_block_apply (x : FVec Ideal S2000x128 .f32) (w : FVec Ideal S128x128 .f32) (p : Fin 2000) (c : Fin 128) :
    matmul dot_S2000x128_S128x128_S2000x128_1_0_0_1_n_n none x w (constant (F := Ideal) S2000x128 .f32 0x00000000#32) (ix2 p c)
      = ∑ k : Fin 128, x (ix2 p k) * w (ix2 k c) :=
  (Ideal.matmul_constant_zero_apply _ none x w _).trans
    ((Ideal.dotGeneral_apply (DotDims.plain 2000 128 128) none _ x w _).symm.trans (StackMember.dotGeneral_plain_apply none x w p c))

-- Every operation acts entry by entry except the two products, which contract along a row.
theorem pay_apply (x0 x1 : Vec Ideal S2000x128 .f32) (W1 : Vec Ideal S128x128 .f32) (b1 v g mu bt : Vec Ideal S1x128 .f32)
    (W2 : Vec Ideal S128x128 .f32) (b2 : Vec Ideal S1x128 .f32) (h agg : Fin 20000 → Fin 128 → EReal)
    (r : Fin 20000) (p : Fin 2000) (c : Fin 128)
    (hx0 : ∀ j, x0 (ix2 p j) = h r j) (hx1 : ∀ j, x1 (ix2 p j) = agg r j) :
    k0_pay1 (F := Ideal) (k0_pay2 x0 x1 W1 b1 v g mu bt W2) b2 (ix2 p c)
      = Cert.Spec.layer h agg (Cert.Spec.cur2 W1) (Cert.Spec.row b1) (Cert.Spec.row g) (Cert.Spec.row bt) (Cert.Spec.row mu)
          (Cert.Spec.row v) (Cert.Spec.cur2 W2) (Cert.Spec.row b2) r c := by
  unfold k0_pay1 k0_pay2
  simp only [shapeCast_self, maximumf_apply, addf_apply, subf_apply, mulf_apply, broadcast_apply,
    broadcastTo_1b_ab_apply, matmul_block_apply, hx0, hx1]
  simp only [Ideal.ofBits_def, Ideal.ofBits_zero_f32]
  rfl

variable (V : (c : Dev nD) → (b : Ref sig .tc) → Buf (Elt Ideal) ((c : Thread nD τ).loc b))

theorem hz : (![0, 0] : Fin 2 → Nat) = fun _ => 0 := funext fun a => by fin_cases a <;> rfl

abbrev arrH (c : Dev nD) : Vec Ideal S20000x128 .f32 := V c (Pipeline.arrRef spec0 0)
abbrev arrAgg (c : Dev nD) : Vec Ideal S20000x128 .f32 := V c (Pipeline.arrRef spec0 1)
abbrev arrW1 (c : Dev nD) : Vec Ideal S128x128 .f32 := V c (Pipeline.arrRef spec0 2)
abbrev arrB1 (c : Dev nD) : Vec Ideal S1x128 .f32 := V c (Pipeline.arrRef spec0 3)
abbrev arrG (c : Dev nD) : Vec Ideal S1x128 .f32 := V c (Pipeline.arrRef spec0 4)
abbrev arrBt (c : Dev nD) : Vec Ideal S1x128 .f32 := V c (Pipeline.arrRef spec0 5)
abbrev arrMu (c : Dev nD) : Vec Ideal S1x128 .f32 := V c (Pipeline.arrRef spec0 6)
abbrev arrVar (c : Dev nD) : Vec Ideal S1x128 .f32 := V c (Pipeline.arrRef spec0 7)
abbrev arrW2 (c : Dev nD) : Vec Ideal S128x128 .f32 := V c (Pipeline.arrRef spec0 8)
abbrev arrB2 (c : Dev nD) : Vec Ideal S1x128 .f32 := V c (Pipeline.arrRef spec0 9)

abbrev layerArr (c : Dev nD) : Vec Ideal S20000x128 .f32 :=
  Cert.Spec.unc2 (Cert.Spec.layer (Cert.Spec.cur2 (arrH V c)) (Cert.Spec.cur2 (arrAgg V c)) (Cert.Spec.cur2 (arrW1 V c))
    (Cert.Spec.row (arrB1 V c)) (Cert.Spec.row (arrG V c)) (Cert.Spec.row (arrBt V c)) (Cert.Spec.row (arrMu V c))
    (Cert.Spec.row (arrVar V c)) (Cert.Spec.cur2 (arrW2 V c)) (Cert.Spec.row (arrB2 V c)))

theorem idx_facts0 : ∀ t : Fin cfg0.N, win0_0.index t 0 = t.val ∧ win0_1.index t 0 = t.val ∧ win0_10.index t 0 = t.val :=
  (by decide +kernel : ∀ t : Fin grid0.N, _)

-- A block of 2000 rows at block index `n` starts at row `2000 n` and has unit stride.
theorem row_emb {off : Fin 2 → Nat} {inb} (n : Nat) (h0 : off 0 = n * 2000) (h1 : off 1 = 0) (p : Fin 2000) (j : Fin 128)
    (r : Fin 20000) (hr : r.val = 2000 * n + p.val) :
    (Rect.unit (s := S20000x128) off S2000x128.size inb).emb (ix2 p j) = ix2 r j :=
  Shape.idx_ext₂ (by show off 0 + 1 * p.val = r.val; omega) (by show off 1 + 1 * j.val = j.val; omega)

-- A block of the array's own size at the origin is the array.
theorem blk_fixed (c : Dev nD) (t : Fin cfg0.N) :
    iblk0 V c 2 t = arrW1 V c ∧ iblk0 V c 3 t = arrB1 V c
    ∧ iblk0 V c 4 t = arrG V c ∧ iblk0 V c 5 t = arrBt V c
    ∧ iblk0 V c 6 t = arrMu V c ∧ iblk0 V c 7 t = arrVar V c
    ∧ iblk0 V c 8 t = arrW2 V c ∧ iblk0 V c 9 t = arrB2 V c := by
  refine ⟨?_, ?_, ?_, ?_, ?_, ?_, ?_, ?_⟩ <;>
    exact Memref.read_access_unit_zero _ _ (funext fun a => by fin_cases a <;> rfl) _ _

theorem flushed0_eq (c : Dev nD) (t : Fin cfg0.N) :
    (dat0 (F := Ideal) V c).flushed 10 t = ((cfg0.win 10).blk t).view.read (Elt Ideal) (layerArr V c) := by
  obtain ⟨e0, e1, e10⟩ := idx_facts0 t
  obtain ⟨h2, h3, h4, h5, h6, h7, h8, h9⟩ := blk_fixed V c t
  have hN : t.val < 10 := Nat.lt_of_lt_of_eq t.isLt N_0
  show (cfg0.win 10).cut (grid0.coords t) ((dat0 (F := Ideal) V c).after 10 t) = _
  rw [after0_10, h2, h3, h4, h5, h6, h7, h8, h9]
  unfold out0_10
  rw [View.canon_unit_zero hz]
  simp only [View.ld_unit_zero (S := S2000x128) hz, View.ld_unit_zero (S := S128x128) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hp := p.isLt
  exact (pay_apply _ _ _ _ _ _ _ _ _ _ (Cert.Spec.cur2 (arrH V c)) (Cert.Spec.cur2 (arrAgg V c)) ⟨2000 * t.val + p.val, by omega⟩ p q
    (fun j => congrArg (arrH V c) (row_emb t.val (congrArg (· * 2000) e0) rfl p j _ rfl))
    (fun j => congrArg (arrAgg V c) (row_emb t.val (congrArg (· * 2000) e1) rfl p j _ rfl))).trans
    (congrArg (layerArr V c) (row_emb t.val (congrArg (· * 2000) e10) rfl p q _ rfl)).symm

-- Row `r` is row `r % 2000` of the block of point `r / 2000`: the ten blocks tile the array.
theorem cover0 (i : S20000x128.Idx) : ∃ t : Fin cfg0.N, (cfg0.win 10).flush t = true ∧ i ∈ ((cfg0.win 10).blk t).view.set := by
  obtain ⟨r, j, rfl⟩ : ∃ (r : Fin 20000) (j : Fin 128), i = ix2 r j := ⟨i 0, i 1, eq_ix2 i⟩
  have hr := r.isLt
  let t : Fin cfg0.N := ⟨r.val / 2000, (by omega : r.val / 2000 < 10).trans_eq N_0.symm⟩
  have h : ((cfg0.win 10).blk t).view.emb (ix2 ⟨r.val % 2000, Nat.mod_lt _ (by decide)⟩ j) = ix2 r j :=
    row_emb t.val (congrArg (· * 2000) (idx_facts0 t).2.2) rfl _ j r (Nat.div_add_mod _ _).symm
  exact ⟨t, flush0_10 t, h ▸ View.emb_mem_set _ _⟩

theorem arr0 (c : Dev nD) : (dat0 (F := Ideal) V c).arrAt 10 cfg0.N
    = Cert.Spec.unc2 (Cert.Spec.layer (Cert.Spec.cur2 (arrH V c)) (Cert.Spec.cur2 (arrAgg V c)) (Cert.Spec.cur2 (arrW1 V c))
        (Cert.Spec.row (arrB1 V c)) (Cert.Spec.row (arrG V c)) (Cert.Spec.row (arrBt V c)) (Cert.Spec.row (arrMu V c))
        (Cert.Spec.row (arrVar V c)) (Cert.Spec.cur2 (arrW2 V c)) (Cert.Spec.row (arrB2 V c))) :=
  (dat0 (F := Ideal) V c).arrAt_eq_of_cover 10 (layerArr V c) (fun t _ => flushed0_eq V c t) cover0

end Cert.KernelIdeal.HandValue

end
-- ==== Proof.KIValA1.lean ====
import proofs.«428006_j27865747816548_3_alg».proof.Proof.KIA1
import proofs.«428006_j27865747816548_3_alg».proof.Proof.KIValA0
import proofs.«428006_j27865747816548_3_alg».proof.Proof.Spec
import Idealize.ShloMosaic.Lib.StackMember
import Idealize.ShloMosaic.Lib.ValueLayout

noncomputable section

namespace Cert.KernelIdeal.HandValue.L1

open Cert.KernelIdeal Cert.KernelIdeal.Gen Cert.KernelIdeal.Hand
open Idealize.ShloMosaic Idealize.ShloMosaic.TcCoe Idealize.SL.Sem Idealize.ShloMosaic.ValueIdx

-- Every operation acts entry by entry except the two products, which contract along a row.
theorem pay_apply (x0 x1 : Vec Ideal S2000x128 .f32) (W1 : Vec Ideal S128x128 .f32) (b1 v g mu bt : Vec Ideal S1x128 .f32)
    (W2 : Vec Ideal S128x128 .f32) (b2 : Vec Ideal S1x128 .f32) (h agg : Fin 20000 → Fin 128 → EReal)
    (r : Fin 20000) (p : Fin 2000) (c : Fin 128)
    (hx0 : ∀ j, x0 (ix2 p j) = h r j) (hx1 : ∀ j, x1 (ix2 p j) = agg r j) :
    k1_pay1 (F := Ideal) (k1_pay2 x0 x1 W1 b1 v g mu bt W2) b2 (ix2 p c)
      = Cert.Spec.layer h agg (Cert.Spec.cur2 W1) (Cert.Spec.row b1) (Cert.Spec.row g) (Cert.Spec.row bt) (Cert.Spec.row mu)
          (Cert.Spec.row v) (Cert.Spec.cur2 W2) (Cert.Spec.row b2) r c := by
  unfold k1_pay1 k1_pay2
  simp only [shapeCast_self, maximumf_apply, addf_apply, subf_apply, mulf_apply, broadcast_apply,
    broadcastTo_1b_ab_apply, matmul_block_apply, hx0, hx1]
  simp only [Ideal.ofBits_def, Ideal.ofBits_zero_f32]
  rfl

variable (V : (c : Dev nD) → (b : Ref sig .tc) → Buf (Elt Ideal) ((c : Thread nD τ).loc b))

abbrev arrH (c : Dev nD) : Vec Ideal S20000x128 .f32 := V c (Pipeline.arrRef spec1 0)
abbrev arrAgg (c : Dev nD) : Vec Ideal S20000x128 .f32 := V c (Pipeline.arrRef spec1 1)
abbrev arrW1 (c : Dev nD) : Vec Ideal S128x128 .f32 := V c (Pipeline.arrRef spec1 2)
abbrev arrB1 (c : Dev nD) : Vec Ideal S1x128 .f32 := V c (Pipeline.arrRef spec1 3)
abbrev arrG (c : Dev nD) : Vec Ideal S1x128 .f32 := V c (Pipeline.arrRef spec1 4)
abbrev arrBt (c : Dev nD) : Vec Ideal S1x128 .f32 := V c (Pipeline.arrRef spec1 5)
abbrev arrMu (c : Dev nD) : Vec Ideal S1x128 .f32 := V c (Pipeline.arrRef spec1 6)
abbrev arrVar (c : Dev nD) : Vec Ideal S1x128 .f32 := V c (Pipeline.arrRef spec1 7)
abbrev arrW2 (c : Dev nD) : Vec Ideal S128x128 .f32 := V c (Pipeline.arrRef spec1 8)
abbrev arrB2 (c : Dev nD) : Vec Ideal S1x128 .f32 := V c (Pipeline.arrRef spec1 9)

abbrev layerArr (c : Dev nD) : Vec Ideal S20000x128 .f32 :=
  Cert.Spec.unc2 (Cert.Spec.layer (Cert.Spec.cur2 (arrH V c)) (Cert.Spec.cur2 (arrAgg V c)) (Cert.Spec.cur2 (arrW1 V c))
    (Cert.Spec.row (arrB1 V c)) (Cert.Spec.row (arrG V c)) (Cert.Spec.row (arrBt V c)) (Cert.Spec.row (arrMu V c))
    (Cert.Spec.row (arrVar V c)) (Cert.Spec.cur2 (arrW2 V c)) (Cert.Spec.row (arrB2 V c)))

theorem idx_facts1 : ∀ t : Fin cfg1.N, win1_0.index t 0 = t.val ∧ win1_1.index t 0 = t.val ∧ win1_10.index t 0 = t.val :=
  (by decide +kernel : ∀ t : Fin grid1.N, _)

-- A block of the array's own size at the origin is the array.
theorem blk_fixed (c : Dev nD) (t : Fin cfg1.N) :
    iblk1 V c 2 t = arrW1 V c ∧ iblk1 V c 3 t = arrB1 V c
    ∧ iblk1 V c 4 t = arrG V c ∧ iblk1 V c 5 t = arrBt V c
    ∧ iblk1 V c 6 t = arrMu V c ∧ iblk1 V c 7 t = arrVar V c
    ∧ iblk1 V c 8 t = arrW2 V c ∧ iblk1 V c 9 t = arrB2 V c := by
  refine ⟨?_, ?_, ?_, ?_, ?_, ?_, ?_, ?_⟩ <;>
    exact Memref.read_access_unit_zero _ _ (funext fun a => by fin_cases a <;> rfl) _ _

theorem flushed1_eq (c : Dev nD) (t : Fin cfg1.N) :
    (dat1 (F := Ideal) V c).flushed 10 t = ((cfg1.win 10).blk t).view.read (Elt Ideal) (layerArr V c) := by
  obtain ⟨e0, e1, e10⟩ := idx_facts1 t
  obtain ⟨h2, h3, h4, h5, h6, h7, h8, h9⟩ := blk_fixed V c t
  have hN : t.val < 10 := Nat.lt_of_lt_of_eq t.isLt N_1
  show (cfg1.win 10).cut (grid1.coords t) ((dat1 (F := Ideal) V c).after 10 t) = _
  rw [after1_10, h2, h3, h4, h5, h6, h7, h8, h9]
  unfold out1_10
  rw [View.canon_unit_zero hz]
  simp only [View.ld_unit_zero (S := S2000x128) hz, View.ld_unit_zero (S := S128x128) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hp := p.isLt
  exact (pay_apply _ _ _ _ _ _ _ _ _ _ (Cert.Spec.cur2 (arrH V c)) (Cert.Spec.cur2 (arrAgg V c)) ⟨2000 * t.val + p.val, by omega⟩ p q
    (fun j => congrArg (arrH V c) (row_emb t.val (congrArg (· * 2000) e0) rfl p j _ rfl))
    (fun j => congrArg (arrAgg V c) (row_emb t.val (congrArg (· * 2000) e1) rfl p j _ rfl))).trans
    (congrArg (layerArr V c) (row_emb t.val (congrArg (· * 2000) e10) rfl p q _ rfl)).symm

-- Row `r` is row `r % 2000` of the block of point `r / 2000`: the ten blocks tile the array.
theorem cover1 (i : S20000x128.Idx) : ∃ t : Fin cfg1.N, (cfg1.win 10).flush t = true ∧ i ∈ ((cfg1.win 10).blk t).view.set := by
  obtain ⟨r, j, rfl⟩ : ∃ (r : Fin 20000) (j : Fin 128), i = ix2 r j := ⟨i 0, i 1, eq_ix2 i⟩
  have hr := r.isLt
  let t : Fin cfg1.N := ⟨r.val / 2000, (by omega : r.val / 2000 < 10).trans_eq N_1.symm⟩
  have h : ((cfg1.win 10).blk t).view.emb (ix2 ⟨r.val % 2000, Nat.mod_lt _ (by decide)⟩ j) = ix2 r j :=
    row_emb t.val (congrArg (· * 2000) (idx_facts1 t).2.2) rfl _ j r (Nat.div_add_mod _ _).symm
  exact ⟨t, flush1_10 t, h ▸ View.emb_mem_set _ _⟩

theorem arr1 (c : Dev nD) : (dat1 (F := Ideal) V c).arrAt 10 cfg1.N
    = Cert.Spec.unc2 (Cert.Spec.layer (Cert.Spec.cur2 (arrH V c)) (Cert.Spec.cur2 (arrAgg V c)) (Cert.Spec.cur2 (arrW1 V c))
        (Cert.Spec.row (arrB1 V c)) (Cert.Spec.row (arrG V c)) (Cert.Spec.row (arrBt V c)) (Cert.Spec.row (arrMu V c))
        (Cert.Spec.row (arrVar V c)) (Cert.Spec.cur2 (arrW2 V c)) (Cert.Spec.row (arrB2 V c))) :=
  (dat1 (F := Ideal) V c).arrAt_eq_of_cover 10 (layerArr V c) (fun t _ => flushed1_eq V c t) cover1

end Cert.KernelIdeal.HandValue.L1

namespace Cert.KernelIdeal.HandValue
export L1 (arr1)
end Cert.KernelIdeal.HandValue

end
-- ==== Proof.KIValA2.lean ====
import proofs.«428006_j27865747816548_3_alg».proof.Proof.KIA2
import proofs.«428006_j27865747816548_3_alg».proof.Proof.KIValA0
import proofs.«428006_j27865747816548_3_alg».proof.Proof.Spec
import Idealize.ShloMosaic.Lib.StackMember
import Idealize.ShloMosaic.Lib.ValueLayout

noncomputable section

namespace Cert.KernelIdeal.HandValue.L2

open Cert.KernelIdeal Cert.KernelIdeal.Gen Cert.KernelIdeal.Hand
open Idealize.ShloMosaic Idealize.ShloMosaic.TcCoe Idealize.SL.Sem Idealize.ShloMosaic.ValueIdx

-- Every operation acts entry by entry except the two products, which contract along a row.
theorem pay_apply (x0 x1 : Vec Ideal S2000x128 .f32) (W1 : Vec Ideal S128x128 .f32) (b1 v g mu bt : Vec Ideal S1x128 .f32)
    (W2 : Vec Ideal S128x128 .f32) (b2 : Vec Ideal S1x128 .f32) (h agg : Fin 20000 → Fin 128 → EReal)
    (r : Fin 20000) (p : Fin 2000) (c : Fin 128)
    (hx0 : ∀ j, x0 (ix2 p j) = h r j) (hx1 : ∀ j, x1 (ix2 p j) = agg r j) :
    k2_pay1 (F := Ideal) (k2_pay2 x0 x1 W1 b1 v g mu bt W2) b2 (ix2 p c)
      = Cert.Spec.layer h agg (Cert.Spec.cur2 W1) (Cert.Spec.row b1) (Cert.Spec.row g) (Cert.Spec.row bt) (Cert.Spec.row mu)
          (Cert.Spec.row v) (Cert.Spec.cur2 W2) (Cert.Spec.row b2) r c := by
  unfold k2_pay1 k2_pay2
  simp only [shapeCast_self, maximumf_apply, addf_apply, subf_apply, mulf_apply, broadcast_apply,
    broadcastTo_1b_ab_apply, matmul_block_apply, hx0, hx1]
  simp only [Ideal.ofBits_def, Ideal.ofBits_zero_f32]
  rfl

variable (V : (c : Dev nD) → (b : Ref sig .tc) → Buf (Elt Ideal) ((c : Thread nD τ).loc b))

abbrev arrH (c : Dev nD) : Vec Ideal S20000x128 .f32 := V c (Pipeline.arrRef spec2 0)
abbrev arrAgg (c : Dev nD) : Vec Ideal S20000x128 .f32 := V c (Pipeline.arrRef spec2 1)
abbrev arrW1 (c : Dev nD) : Vec Ideal S128x128 .f32 := V c (Pipeline.arrRef spec2 2)
abbrev arrB1 (c : Dev nD) : Vec Ideal S1x128 .f32 := V c (Pipeline.arrRef spec2 3)
abbrev arrG (c : Dev nD) : Vec Ideal S1x128 .f32 := V c (Pipeline.arrRef spec2 4)
abbrev arrBt (c : Dev nD) : Vec Ideal S1x128 .f32 := V c (Pipeline.arrRef spec2 5)
abbrev arrMu (c : Dev nD) : Vec Ideal S1x128 .f32 := V c (Pipeline.arrRef spec2 6)
abbrev arrVar (c : Dev nD) : Vec Ideal S1x128 .f32 := V c (Pipeline.arrRef spec2 7)
abbrev arrW2 (c : Dev nD) : Vec Ideal S128x128 .f32 := V c (Pipeline.arrRef spec2 8)
abbrev arrB2 (c : Dev nD) : Vec Ideal S1x128 .f32 := V c (Pipeline.arrRef spec2 9)

abbrev layerArr (c : Dev nD) : Vec Ideal S20000x128 .f32 :=
  Cert.Spec.unc2 (Cert.Spec.layer (Cert.Spec.cur2 (arrH V c)) (Cert.Spec.cur2 (arrAgg V c)) (Cert.Spec.cur2 (arrW1 V c))
    (Cert.Spec.row (arrB1 V c)) (Cert.Spec.row (arrG V c)) (Cert.Spec.row (arrBt V c)) (Cert.Spec.row (arrMu V c))
    (Cert.Spec.row (arrVar V c)) (Cert.Spec.cur2 (arrW2 V c)) (Cert.Spec.row (arrB2 V c)))

theorem idx_facts2 : ∀ t : Fin cfg2.N, win2_0.index t 0 = t.val ∧ win2_1.index t 0 = t.val ∧ win2_10.index t 0 = t.val :=
  (by decide +kernel : ∀ t : Fin grid2.N, _)

-- A block of the array's own size at the origin is the array.
theorem blk_fixed (c : Dev nD) (t : Fin cfg2.N) :
    iblk2 V c 2 t = arrW1 V c ∧ iblk2 V c 3 t = arrB1 V c
    ∧ iblk2 V c 4 t = arrG V c ∧ iblk2 V c 5 t = arrBt V c
    ∧ iblk2 V c 6 t = arrMu V c ∧ iblk2 V c 7 t = arrVar V c
    ∧ iblk2 V c 8 t = arrW2 V c ∧ iblk2 V c 9 t = arrB2 V c := by
  refine ⟨?_, ?_, ?_, ?_, ?_, ?_, ?_, ?_⟩ <;>
    exact Memref.read_access_unit_zero _ _ (funext fun a => by fin_cases a <;> rfl) _ _

theorem flushed2_eq (c : Dev nD) (t : Fin cfg2.N) :
    (dat2 (F := Ideal) V c).flushed 10 t = ((cfg2.win 10).blk t).view.read (Elt Ideal) (layerArr V c) := by
  obtain ⟨e0, e1, e10⟩ := idx_facts2 t
  obtain ⟨h2, h3, h4, h5, h6, h7, h8, h9⟩ := blk_fixed V c t
  have hN : t.val < 10 := Nat.lt_of_lt_of_eq t.isLt N_2
  show (cfg2.win 10).cut (grid2.coords t) ((dat2 (F := Ideal) V c).after 10 t) = _
  rw [after2_10, h2, h3, h4, h5, h6, h7, h8, h9]
  unfold out2_10
  rw [View.canon_unit_zero hz]
  simp only [View.ld_unit_zero (S := S2000x128) hz, View.ld_unit_zero (S := S128x128) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hp := p.isLt
  exact (pay_apply _ _ _ _ _ _ _ _ _ _ (Cert.Spec.cur2 (arrH V c)) (Cert.Spec.cur2 (arrAgg V c)) ⟨2000 * t.val + p.val, by omega⟩ p q
    (fun j => congrArg (arrH V c) (row_emb t.val (congrArg (· * 2000) e0) rfl p j _ rfl))
    (fun j => congrArg (arrAgg V c) (row_emb t.val (congrArg (· * 2000) e1) rfl p j _ rfl))).trans
    (congrArg (layerArr V c) (row_emb t.val (congrArg (· * 2000) e10) rfl p q _ rfl)).symm

-- Row `r` is row `r % 2000` of the block of point `r / 2000`: the ten blocks tile the array.
theorem cover2 (i : S20000x128.Idx) : ∃ t : Fin cfg2.N, (cfg2.win 10).flush t = true ∧ i ∈ ((cfg2.win 10).blk t).view.set := by
  obtain ⟨r, j, rfl⟩ : ∃ (r : Fin 20000) (j : Fin 128), i = ix2 r j := ⟨i 0, i 1, eq_ix2 i⟩
  have hr := r.isLt
  let t : Fin cfg2.N := ⟨r.val / 2000, (by omega : r.val / 2000 < 10).trans_eq N_2.symm⟩
  have h : ((cfg2.win 10).blk t).view.emb (ix2 ⟨r.val % 2000, Nat.mod_lt _ (by decide)⟩ j) = ix2 r j :=
    row_emb t.val (congrArg (· * 2000) (idx_facts2 t).2.2) rfl _ j r (Nat.div_add_mod _ _).symm
  exact ⟨t, flush2_10 t, h ▸ View.emb_mem_set _ _⟩

theorem arr2 (c : Dev nD) : (dat2 (F := Ideal) V c).arrAt 10 cfg2.N
    = Cert.Spec.unc2 (Cert.Spec.layer (Cert.Spec.cur2 (arrH V c)) (Cert.Spec.cur2 (arrAgg V c)) (Cert.Spec.cur2 (arrW1 V c))
        (Cert.Spec.row (arrB1 V c)) (Cert.Spec.row (arrG V c)) (Cert.Spec.row (arrBt V c)) (Cert.Spec.row (arrMu V c))
        (Cert.Spec.row (arrVar V c)) (Cert.Spec.cur2 (arrW2 V c)) (Cert.Spec.row (arrB2 V c))) :=
  (dat2 (F := Ideal) V c).arrAt_eq_of_cover 10 (layerArr V c) (fun t _ => flushed2_eq V c t) cover2

end Cert.KernelIdeal.HandValue.L2

namespace Cert.KernelIdeal.HandValue
export L2 (arr2)
end Cert.KernelIdeal.HandValue

end
-- ==== Proof.KIValA3.lean ====
import proofs.«428006_j27865747816548_3_alg».proof.Proof.KIA3
import proofs.«428006_j27865747816548_3_alg».proof.Proof.KIValA0
import proofs.«428006_j27865747816548_3_alg».proof.Proof.Spec
import Idealize.ShloMosaic.Lib.StackMember
import Idealize.ShloMosaic.Lib.ValueLayout

noncomputable section

namespace Cert.KernelIdeal.HandValue.L3

open Cert.KernelIdeal Cert.KernelIdeal.Gen Cert.KernelIdeal.Hand
open Idealize.ShloMosaic Idealize.ShloMosaic.TcCoe Idealize.SL.Sem Idealize.ShloMosaic.ValueIdx

-- Every operation acts entry by entry except the two products, which contract along a row.
theorem pay_apply (x0 x1 : Vec Ideal S2000x128 .f32) (W1 : Vec Ideal S128x128 .f32) (b1 v g mu bt : Vec Ideal S1x128 .f32)
    (W2 : Vec Ideal S128x128 .f32) (b2 : Vec Ideal S1x128 .f32) (h agg : Fin 20000 → Fin 128 → EReal)
    (r : Fin 20000) (p : Fin 2000) (c : Fin 128)
    (hx0 : ∀ j, x0 (ix2 p j) = h r j) (hx1 : ∀ j, x1 (ix2 p j) = agg r j) :
    k3_pay1 (F := Ideal) (k3_pay2 x0 x1 W1 b1 v g mu bt W2) b2 (ix2 p c)
      = Cert.Spec.layer h agg (Cert.Spec.cur2 W1) (Cert.Spec.row b1) (Cert.Spec.row g) (Cert.Spec.row bt) (Cert.Spec.row mu)
          (Cert.Spec.row v) (Cert.Spec.cur2 W2) (Cert.Spec.row b2) r c := by
  unfold k3_pay1 k3_pay2
  simp only [shapeCast_self, maximumf_apply, addf_apply, subf_apply, mulf_apply, broadcast_apply,
    broadcastTo_1b_ab_apply, matmul_block_apply, hx0, hx1]
  simp only [Ideal.ofBits_def, Ideal.ofBits_zero_f32]
  rfl

variable (V : (c : Dev nD) → (b : Ref sig .tc) → Buf (Elt Ideal) ((c : Thread nD τ).loc b))

abbrev arrH (c : Dev nD) : Vec Ideal S20000x128 .f32 := V c (Pipeline.arrRef spec3 0)
abbrev arrAgg (c : Dev nD) : Vec Ideal S20000x128 .f32 := V c (Pipeline.arrRef spec3 1)
abbrev arrW1 (c : Dev nD) : Vec Ideal S128x128 .f32 := V c (Pipeline.arrRef spec3 2)
abbrev arrB1 (c : Dev nD) : Vec Ideal S1x128 .f32 := V c (Pipeline.arrRef spec3 3)
abbrev arrG (c : Dev nD) : Vec Ideal S1x128 .f32 := V c (Pipeline.arrRef spec3 4)
abbrev arrBt (c : Dev nD) : Vec Ideal S1x128 .f32 := V c (Pipeline.arrRef spec3 5)
abbrev arrMu (c : Dev nD) : Vec Ideal S1x128 .f32 := V c (Pipeline.arrRef spec3 6)
abbrev arrVar (c : Dev nD) : Vec Ideal S1x128 .f32 := V c (Pipeline.arrRef spec3 7)
abbrev arrW2 (c : Dev nD) : Vec Ideal S128x128 .f32 := V c (Pipeline.arrRef spec3 8)
abbrev arrB2 (c : Dev nD) : Vec Ideal S1x128 .f32 := V c (Pipeline.arrRef spec3 9)

abbrev layerArr (c : Dev nD) : Vec Ideal S20000x128 .f32 :=
  Cert.Spec.unc2 (Cert.Spec.layer (Cert.Spec.cur2 (arrH V c)) (Cert.Spec.cur2 (arrAgg V c)) (Cert.Spec.cur2 (arrW1 V c))
    (Cert.Spec.row (arrB1 V c)) (Cert.Spec.row (arrG V c)) (Cert.Spec.row (arrBt V c)) (Cert.Spec.row (arrMu V c))
    (Cert.Spec.row (arrVar V c)) (Cert.Spec.cur2 (arrW2 V c)) (Cert.Spec.row (arrB2 V c)))

theorem idx_facts3 : ∀ t : Fin cfg3.N, win3_0.index t 0 = t.val ∧ win3_1.index t 0 = t.val ∧ win3_10.index t 0 = t.val :=
  (by decide +kernel : ∀ t : Fin grid3.N, _)

-- A block of the array's own size at the origin is the array.
theorem blk_fixed (c : Dev nD) (t : Fin cfg3.N) :
    iblk3 V c 2 t = arrW1 V c ∧ iblk3 V c 3 t = arrB1 V c
    ∧ iblk3 V c 4 t = arrG V c ∧ iblk3 V c 5 t = arrBt V c
    ∧ iblk3 V c 6 t = arrMu V c ∧ iblk3 V c 7 t = arrVar V c
    ∧ iblk3 V c 8 t = arrW2 V c ∧ iblk3 V c 9 t = arrB2 V c := by
  refine ⟨?_, ?_, ?_, ?_, ?_, ?_, ?_, ?_⟩ <;>
    exact Memref.read_access_unit_zero _ _ (funext fun a => by fin_cases a <;> rfl) _ _

theorem flushed3_eq (c : Dev nD) (t : Fin cfg3.N) :
    (dat3 (F := Ideal) V c).flushed 10 t = ((cfg3.win 10).blk t).view.read (Elt Ideal) (layerArr V c) := by
  obtain ⟨e0, e1, e10⟩ := idx_facts3 t
  obtain ⟨h2, h3, h4, h5, h6, h7, h8, h9⟩ := blk_fixed V c t
  have hN : t.val < 10 := Nat.lt_of_lt_of_eq t.isLt N_3
  show (cfg3.win 10).cut (grid3.coords t) ((dat3 (F := Ideal) V c).after 10 t) = _
  rw [after3_10, h2, h3, h4, h5, h6, h7, h8, h9]
  unfold out3_10
  rw [View.canon_unit_zero hz]
  simp only [View.ld_unit_zero (S := S2000x128) hz, View.ld_unit_zero (S := S128x128) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hp := p.isLt
  exact (pay_apply _ _ _ _ _ _ _ _ _ _ (Cert.Spec.cur2 (arrH V c)) (Cert.Spec.cur2 (arrAgg V c)) ⟨2000 * t.val + p.val, by omega⟩ p q
    (fun j => congrArg (arrH V c) (row_emb t.val (congrArg (· * 2000) e0) rfl p j _ rfl))
    (fun j => congrArg (arrAgg V c) (row_emb t.val (congrArg (· * 2000) e1) rfl p j _ rfl))).trans
    (congrArg (layerArr V c) (row_emb t.val (congrArg (· * 2000) e10) rfl p q _ rfl)).symm

-- Row `r` is row `r % 2000` of the block of point `r / 2000`: the ten blocks tile the array.
theorem cover3 (i : S20000x128.Idx) : ∃ t : Fin cfg3.N, (cfg3.win 10).flush t = true ∧ i ∈ ((cfg3.win 10).blk t).view.set := by
  obtain ⟨r, j, rfl⟩ : ∃ (r : Fin 20000) (j : Fin 128), i = ix2 r j := ⟨i 0, i 1, eq_ix2 i⟩
  have hr := r.isLt
  let t : Fin cfg3.N := ⟨r.val / 2000, (by omega : r.val / 2000 < 10).trans_eq N_3.symm⟩
  have h : ((cfg3.win 10).blk t).view.emb (ix2 ⟨r.val % 2000, Nat.mod_lt _ (by decide)⟩ j) = ix2 r j :=
    row_emb t.val (congrArg (· * 2000) (idx_facts3 t).2.2) rfl _ j r (Nat.div_add_mod _ _).symm
  exact ⟨t, flush3_10 t, h ▸ View.emb_mem_set _ _⟩

theorem arr3 (c : Dev nD) : (dat3 (F := Ideal) V c).arrAt 10 cfg3.N
    = Cert.Spec.unc2 (Cert.Spec.layer (Cert.Spec.cur2 (arrH V c)) (Cert.Spec.cur2 (arrAgg V c)) (Cert.Spec.cur2 (arrW1 V c))
        (Cert.Spec.row (arrB1 V c)) (Cert.Spec.row (arrG V c)) (Cert.Spec.row (arrBt V c)) (Cert.Spec.row (arrMu V c))
        (Cert.Spec.row (arrVar V c)) (Cert.Spec.cur2 (arrW2 V c)) (Cert.Spec.row (arrB2 V c))) :=
  (dat3 (F := Ideal) V c).arrAt_eq_of_cover 10 (layerArr V c) (fun t _ => flushed3_eq V c t) cover3

end Cert.KernelIdeal.HandValue.L3

namespace Cert.KernelIdeal.HandValue
export L3 (arr3)
end Cert.KernelIdeal.HandValue

end
-- ==== Proof.KIValA4.lean ====
import proofs.«428006_j27865747816548_3_alg».proof.Proof.KIA4
import proofs.«428006_j27865747816548_3_alg».proof.Proof.KIValA0
import proofs.«428006_j27865747816548_3_alg».proof.Proof.Spec
import Idealize.ShloMosaic.Lib.StackMember
import Idealize.ShloMosaic.Lib.ValueLayout

noncomputable section

namespace Cert.KernelIdeal.HandValue.L4

open Cert.KernelIdeal Cert.KernelIdeal.Gen Cert.KernelIdeal.Hand
open Idealize.ShloMosaic Idealize.ShloMosaic.TcCoe Idealize.SL.Sem Idealize.ShloMosaic.ValueIdx

-- Every operation acts entry by entry except the two products, which contract along a row.
theorem pay_apply (x0 x1 : Vec Ideal S2000x128 .f32) (W1 : Vec Ideal S128x128 .f32) (b1 v g mu bt : Vec Ideal S1x128 .f32)
    (W2 : Vec Ideal S128x128 .f32) (b2 : Vec Ideal S1x128 .f32) (h agg : Fin 20000 → Fin 128 → EReal)
    (r : Fin 20000) (p : Fin 2000) (c : Fin 128)
    (hx0 : ∀ j, x0 (ix2 p j) = h r j) (hx1 : ∀ j, x1 (ix2 p j) = agg r j) :
    k4_pay1 (F := Ideal) (k4_pay2 x0 x1 W1 b1 v g mu bt W2) b2 (ix2 p c)
      = Cert.Spec.layer h agg (Cert.Spec.cur2 W1) (Cert.Spec.row b1) (Cert.Spec.row g) (Cert.Spec.row bt) (Cert.Spec.row mu)
          (Cert.Spec.row v) (Cert.Spec.cur2 W2) (Cert.Spec.row b2) r c := by
  unfold k4_pay1 k4_pay2
  simp only [shapeCast_self, maximumf_apply, addf_apply, subf_apply, mulf_apply, broadcast_apply,
    broadcastTo_1b_ab_apply, matmul_block_apply, hx0, hx1]
  simp only [Ideal.ofBits_def, Ideal.ofBits_zero_f32]
  rfl

variable (V : (c : Dev nD) → (b : Ref sig .tc) → Buf (Elt Ideal) ((c : Thread nD τ).loc b))

abbrev arrH (c : Dev nD) : Vec Ideal S20000x128 .f32 := V c (Pipeline.arrRef spec4 0)
abbrev arrAgg (c : Dev nD) : Vec Ideal S20000x128 .f32 := V c (Pipeline.arrRef spec4 1)
abbrev arrW1 (c : Dev nD) : Vec Ideal S128x128 .f32 := V c (Pipeline.arrRef spec4 2)
abbrev arrB1 (c : Dev nD) : Vec Ideal S1x128 .f32 := V c (Pipeline.arrRef spec4 3)
abbrev arrG (c : Dev nD) : Vec Ideal S1x128 .f32 := V c (Pipeline.arrRef spec4 4)
abbrev arrBt (c : Dev nD) : Vec Ideal S1x128 .f32 := V c (Pipeline.arrRef spec4 5)
abbrev arrMu (c : Dev nD) : Vec Ideal S1x128 .f32 := V c (Pipeline.arrRef spec4 6)
abbrev arrVar (c : Dev nD) : Vec Ideal S1x128 .f32 := V c (Pipeline.arrRef spec4 7)
abbrev arrW2 (c : Dev nD) : Vec Ideal S128x128 .f32 := V c (Pipeline.arrRef spec4 8)
abbrev arrB2 (c : Dev nD) : Vec Ideal S1x128 .f32 := V c (Pipeline.arrRef spec4 9)

abbrev layerArr (c : Dev nD) : Vec Ideal S20000x128 .f32 :=
  Cert.Spec.unc2 (Cert.Spec.layer (Cert.Spec.cur2 (arrH V c)) (Cert.Spec.cur2 (arrAgg V c)) (Cert.Spec.cur2 (arrW1 V c))
    (Cert.Spec.row (arrB1 V c)) (Cert.Spec.row (arrG V c)) (Cert.Spec.row (arrBt V c)) (Cert.Spec.row (arrMu V c))
    (Cert.Spec.row (arrVar V c)) (Cert.Spec.cur2 (arrW2 V c)) (Cert.Spec.row (arrB2 V c)))

theorem idx_facts4 : ∀ t : Fin cfg4.N, win4_0.index t 0 = t.val ∧ win4_1.index t 0 = t.val ∧ win4_10.index t 0 = t.val :=
  (by decide +kernel : ∀ t : Fin grid4.N, _)

-- A block of the array's own size at the origin is the array.
theorem blk_fixed (c : Dev nD) (t : Fin cfg4.N) :
    iblk4 V c 2 t = arrW1 V c ∧ iblk4 V c 3 t = arrB1 V c
    ∧ iblk4 V c 4 t = arrG V c ∧ iblk4 V c 5 t = arrBt V c
    ∧ iblk4 V c 6 t = arrMu V c ∧ iblk4 V c 7 t = arrVar V c
    ∧ iblk4 V c 8 t = arrW2 V c ∧ iblk4 V c 9 t = arrB2 V c := by
  refine ⟨?_, ?_, ?_, ?_, ?_, ?_, ?_, ?_⟩ <;>
    exact Memref.read_access_unit_zero _ _ (funext fun a => by fin_cases a <;> rfl) _ _

theorem flushed4_eq (c : Dev nD) (t : Fin cfg4.N) :
    (dat4 (F := Ideal) V c).flushed 10 t = ((cfg4.win 10).blk t).view.read (Elt Ideal) (layerArr V c) := by
  obtain ⟨e0, e1, e10⟩ := idx_facts4 t
  obtain ⟨h2, h3, h4, h5, h6, h7, h8, h9⟩ := blk_fixed V c t
  have hN : t.val < 10 := Nat.lt_of_lt_of_eq t.isLt N_4
  show (cfg4.win 10).cut (grid4.coords t) ((dat4 (F := Ideal) V c).after 10 t) = _
  rw [after4_10, h2, h3, h4, h5, h6, h7, h8, h9]
  unfold out4_10
  rw [View.canon_unit_zero hz]
  simp only [View.ld_unit_zero (S := S2000x128) hz, View.ld_unit_zero (S := S128x128) hz, View.ld_unit_zero (S := S1x128) hz]
  refine funext fun (y : S2000x128.Idx) => ?_
  obtain ⟨p, q, rfl⟩ : ∃ (p : Fin 2000) (q : Fin 128), y = ix2 p q := ⟨y 0, y 1, eq_ix2 y⟩
  have hp := p.isLt
  exact (pay_apply _ _ _ _ _ _ _ _ _ _ (Cert.Spec.cur2 (arrH V c)) (Cert.Spec.cur2 (arrAgg V c)) ⟨2000 * t.val + p.val, by omega⟩ p q
    (fun j => congrArg (arrH V c) (row_emb t.val (congrArg (· * 2000) e0) rfl p j _ rfl))
    (fun j => congrArg (arrAgg V c) (row_emb t.val (congrArg (· * 2000) e1) rfl p j _ rfl))).trans
    (congrArg (layerArr V c) (row_emb t.val (congrArg (· * 2000) e10) rfl p q _ rfl)).symm

-- Row `r` is row `r % 2000` of the block of point `r / 2000`: the ten blocks tile the array.
theorem cover4 (i : S20000x128.Idx) : ∃ t : Fin cfg4.N, (cfg4.win 10).flush t = true ∧ i ∈ ((cfg4.win 10).blk t).view.set := by
  obtain ⟨r, j, rfl⟩ : ∃ (r : Fin 20000) (j : Fin 128), i = ix2 r j := ⟨i 0, i 1, eq_ix2 i⟩
  have hr := r.isLt
  let t : Fin cfg4.N := ⟨r.val / 2000, (by omega : r.val / 2000 < 10).trans_eq N_4.symm⟩
  have h : ((cfg4.win 10).blk t).view.emb (ix2 ⟨r.val % 2000, Nat.mod_lt _ (by decide)⟩ j) = ix2 r j :=
    row_emb t.val (congrArg (· * 2000) (idx_facts4 t).2.2) rfl _ j r (Nat.div_add_mod _ _).symm
  exact ⟨t, flush4_10 t, h ▸ View.emb_mem_set _ _⟩

theorem arr4 (c : Dev nD) : (dat4 (F := Ideal) V c).arrAt 10 cfg4.N
    = Cert.Spec.unc2 (Cert.Spec.layer (Cert.Spec.cur2 (arrH V c)) (Cert.Spec.cur2 (arrAgg V c)) (Cert.Spec.cur2 (arrW1 V c))
        (Cert.Spec.row (arrB1 V c)) (Cert.Spec.row (arrG V c)) (Cert.Spec.row (arrBt V c)) (Cert.Spec.row (arrMu V c))
        (Cert.Spec.row (arrVar V c)) (Cert.Spec.cur2 (arrW2 V c)) (Cert.Spec.row (arrB2 V c))) :=
  (dat4 (F := Ideal) V c).arrAt_eq_of_cover 10 (layerArr V c) (fun t _ => flushed4_eq V c t) cover4

end Cert.KernelIdeal.HandValue.L4

namespace Cert.KernelIdeal.HandValue
export L4 (arr4)
end Cert.KernelIdeal.HandValue

end
-- ==== Proof.KIValP5Pay.lean ====
import proofs.«428006_j27865747816548_3_alg».proof.Proof.Gen.KernelIdeal.Skeleton
import proofs.«428006_j27865747816548_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StackMember

noncomputable section

namespace Cert.KernelIdeal.HandValue

open Idealize.ShloMosaic Idealize.ShloMosaic.ValueIdx Cert.KernelIdeal Cert.KernelIdeal.Gen

theorem pay1_apply (g d : Fin 128) : (k5_pay1 (F := Ideal)) (ix2 g d) = 0 := by
  unfold k5_pay1
  rw [shapeCast_self]
  exact Ideal.ofBits_zero_f32

theorem onehot_entry (x : BitVec 32) (g : Fin 128) :
    FloatOps.sitofp (F := Ideal) .f32 ((IntOp.cmpi .eq x (BitVec.ofNat 32 g.val)).setWidth 32)
      = if x = BitVec.ofNat 32 g.val then (1 : EReal) else 0 := by
  by_cases h : x = BitVec.ofNat 32 g.val
  · rw [if_pos h, h]
    show (((((IntOp.cmpi .eq (BitVec.ofNat 32 g.val) (BitVec.ofNat 32 g.val)).setWidth 32).toInt : ℤ) : ℝ) : EReal) = 1
    simp [IntOp.cmpi]
  · rw [if_neg h]
    show (((((IntOp.cmpi .eq x (BitVec.ofNat 32 g.val)).setWidth 32).toInt : ℤ) : ℝ) : EReal) = 0
    have hb : (x == BitVec.ofNat 32 g.val) = false := by simpa using h
    simp [IntOp.cmpi, hb]

-- A column broadcast along the rows reads the column's entry of the same row.
theorem broadcastTo_col_apply {α : Type} {a b : ℕ} (x : (⟨2, ![a, 1]⟩ : Shape).Idx → α) (h : (⟨2, ![a, 1]⟩ : Shape).Broadcasts ⟨2, ![a, b]⟩)
    (g : Fin a) (o : Fin b) : broadcastTo ⟨2, ![a, b]⟩ x h (ix2 g o) = x (ix2 g (0 : Fin 1)) :=
  broadcastTo_apply x h (ix2 g o) (ix2 g (0 : Fin 1)) fun ax => match ax with
    | ⟨0, _⟩ => by show g.val = if a = 1 then 0 else g.val; split <;> omega
    | ⟨1, _⟩ => (if_pos rfl).symm

theorem onehot_apply (ids : IVec S4000x1 32) (hb : S4000x1.Broadcasts S4000x128) (hi : S4000x128.Iotas .tc 32 [1])
    (hlt : 1 < 32) (p : Fin 4000) (g : Fin 128) :
    (sitofp (F := Ideal) .f32 (extui 32 (cmpi .eq (broadcastTo S4000x128 ids hb) (iota .tc S4000x128 32 [1] hi)) hlt)) (ix2 p g)
      = if ids (ix2 p 0) = BitVec.ofNat 32 g.val then (1 : EReal) else 0 := by
  show FloatOps.sitofp (F := Ideal) .f32
      ((IntOp.cmpi .eq (broadcastTo S4000x128 ids hb (ix2 p g)) (iota .tc S4000x128 32 [1] hi (ix2 p g))).setWidth 32) = _
  rw [broadcastTo_col_apply, iota_single_apply .tc S4000x128 32 1 hi (ix2 p g)]
  exact onehot_entry _ g

-- The contraction runs over the one row axis of both operands, so the sum over it is a sum over `Fin 4000`.
theorem poolDot_apply (l r : FVec Ideal S4000x128 .f32) (g d : Fin 128) :
    matmul dot_S4000x128_S4000x128_S128x128_0_0_1_1_n_n none l r (constant (F := Ideal) S128x128 .f32 0x00000000#32) (ix2 g d)
      = ∑ p : Fin 4000, l (ix2 p g) * r (ix2 p d) := by
  refine (Ideal.matmul_constant_zero_apply _ _ _ _ _).trans ?_
  rw [← Equiv.sum_comp (contrEquiv1 _ 4000 rfl rfl).symm]
  refine Finset.sum_congr rfl fun k _ => ?_
  have hk := contrEquiv1_symm_val dot_S4000x128_S4000x128_S128x128_0_0_1_1_n_n 4000 rfl rfl k
  exact congrArg₂ (fun a b => l a * r b) (Shape.idx_ext₂ hk rfl) (Shape.idx_ext₂ hk rfl)

theorem pay3_apply (v3 : Vec Ideal S4000x128 .f32) (v5 : Vec Ideal S4000x1 .i32) (v13 : Vec Ideal S128x128 .f32) (g d : Fin 128) :
    k5_pay3 v3 v5 v13 (ix2 g d)
      = v13 (ix2 g d) + ∑ p : Fin 4000, (if v5 (ix2 p 0) = BitVec.ofNat 32 g.val then (1 : EReal) else 0) * v3 (ix2 p d) := by
  unfold k5_pay3
  simp only [shapeCast_self]
  refine (addf_apply _ _ _).trans ?_
  refine congrArg (v13 (ix2 g d) + ·) ?_
  refine (poolDot_apply _ _ g d).trans ?_
  refine Finset.sum_congr rfl fun p _ => ?_
  exact congrArg (· * v3 (ix2 p d)) (onehot_apply v5 _ _ _ p g)

theorem lin1Dot_apply (l r : FVec Ideal S128x128 .f32) (g k : Fin 128) :
    matmul dot_S128x128_S128x128_S128x128_1_0_0_1_n_n none l r (constant (F := Ideal) S128x128 .f32 0x00000000#32) (ix2 g k)
      = ∑ d : Fin 128, l (ix2 g d) * r (ix2 d k) :=
  (Ideal.matmul_constant_zero_apply _ _ _ _ _).trans
    ((Ideal.dotGeneral_apply _ _ _ _ _ _).symm.trans (StackMember.dotGeneral_plain_apply (m := 128) (n := 128) none l r g k))

theorem lin2Dot_apply (l : FVec Ideal S128x128 .f32) (r : FVec Ideal S128x10 .f32) (g : Fin 128) (o : Fin 10) :
    matmul dot_S128x128_S128x10_S128x10_1_0_0_1_n_n none l r (constant (F := Ideal) S128x10 .f32 0x00000000#32) (ix2 g o)
      = ∑ k : Fin 128, l (ix2 g k) * r (ix2 k o) :=
  (Ideal.matmul_constant_zero_apply _ _ _ _ _).trans
    ((Ideal.dotGeneral_apply _ _ _ _ _ _).symm.trans (StackMember.dotGeneral_plain_apply (m := 128) (n := 10) none l r g o))

theorem shapeCast_col_apply {α : Type} (x : S128.Idx → α) (h : S128.ShapeCasts S128x1) (g : Fin 128) (u : Fin 1) :
    shapeCast S128x1 x h (ix2 g u) = x (ix1 g) :=
  shapeCast_apply x h _ _ (by
    have hu : u.val = 0 := by omega
    rw [Shape.rowMajor_val_two, Shape.rowMajor_val_one]
    show g.val = g.val * 1 + u.val
    rw [hu, Nat.mul_one, Nat.add_zero])

theorem lift_row (h : S128x10.Reduces [1] S128) (g : Fin 128) (o : Fin 10) : h.lift (ix1 g) o = ix2 g o :=
  funext fun a => Fin.ext (by
    match a with
    | ⟨0, _⟩ => rfl
    | ⟨1, _⟩ => rfl)

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cur2_apply {a b : Nat} (f : (⟨2, ![a, b]⟩ : Shape).Idx → EReal) (p : Fin a) (q : Fin b) :
    Spec.cur2 f p q = f (ix2 p q) := rfl

theorem colMax_apply (x : FVec Ideal S128x10 .f32) (hr : S128x10.Reduces [1] S128) (hc : S128.ShapeCasts S128x1)
    (hb : S128x1.Broadcasts S128x10) (hφ : FKind.Formats .f32)
    (hmax : (0xFF800000#32 : BitVec 32) = FKind.maximumf.neutral .f32 hφ) (g : Fin 128) (o : Fin 10) :
    broadcastTo S128x10 (shapeCast S128x1 (multiReduction .maximumf [1] S128 x 0xFF800000#32 hr hφ hmax) hc) hb (ix2 g o)
      = Spec.rowMax (Spec.cur2 x g) := by
  rw [broadcastTo_col_apply, shapeCast_col_apply]
  refine (Ideal.multiReduction_maximumf_single x _ hr hφ hmax (ix1 g)).trans ?_
  have hbot : FloatOps.ofBits (F := Ideal) .f32 0xFF800000#32 = ⊥ := by simp [Ideal.ofBits, Ideal.ieee]
  rw [hbot]
  unfold Spec.rowMax
  show (Finset.univ : Finset (Fin 10)).fold max ⊥ (x ∘ hr.lift (ix1 g)) = _
  refine congrArg (fun f => (Finset.univ : Finset (Fin 10)).fold max ⊥ f) (funext fun o' => ?_)
  exact congrArg x (lift_row hr g o')

theorem colLogSum_apply (e : FVec Ideal S128x10 .f32) (hr : S128x10.Reduces [1] S128) (hc : S128.ShapeCasts S128x1)
    (hb : S128x1.Broadcasts S128x10) (hφ : FKind.Formats .f32)
    (hadd : (0x00000000#32 : BitVec 32) = FKind.add.neutral .f32 hφ) (g : Fin 128) (o : Fin 10) :
    broadcastTo S128x10 (log (shapeCast S128x1 (multiReduction .add [1] S128 e 0x00000000#32 hr hφ hadd) hc)) hb (ix2 g o)
      = Ideal.log (∑ o' : Fin 10, e (ix2 g o')) := by
  rw [broadcastTo_col_apply, log_apply, shapeCast_col_apply]
  refine congrArg Ideal.log ?_
  refine (Ideal.multiReduction_add_single e _ hr hφ hadd (ix1 g)).trans ?_
  show ∑ o' : Fin 10, e (hr.lift (ix1 g) o') = _
  refine Finset.sum_congr rfl fun o' _ => ?_
  exact congrArg e (lift_row hr g o')

theorem logSoftmax_apply (x : FVec Ideal S128x10 .f32) (hr : S128x10.Reduces [1] S128) (hc : S128.ShapeCasts S128x1)
    (hb : S128x1.Broadcasts S128x10) (hφ : FKind.Formats .f32)
    (hmax : (0xFF800000#32 : BitVec 32) = FKind.maximumf.neutral .f32 hφ)
    (hadd : (0x00000000#32 : BitVec 32) = FKind.add.neutral .f32 hφ) (g : Fin 128) (o : Fin 10) :
    subf (subf x (broadcastTo S128x10 (shapeCast S128x1 (multiReduction .maximumf [1] S128 x 0xFF800000#32 hr hφ hmax) hc) hb))
        (broadcastTo S128x10 (log (shapeCast S128x1 (multiReduction .add [1] S128
          (exp (subf x (broadcastTo S128x10 (shapeCast S128x1 (multiReduction .maximumf [1] S128 x 0xFF800000#32 hr hφ hmax) hc) hb)))
          0x00000000#32 hr hφ hadd) hc)) hb) (ix2 g o)
      = Spec.logSoftmax (Spec.cur2 x) g o := by
  refine (subf_apply _ _ _).trans ?_
  rw [colLogSum_apply, subf_apply, colMax_apply]
  unfold Spec.logSoftmax
  refine congrArg (fun s => (x (ix2 g o) - Spec.rowMax (Spec.cur2 x g)) - Ideal.log s) (Finset.sum_congr rfl fun o' _ => ?_)
  rw [exp_apply, subf_apply, colMax_apply]
  rfl

theorem pay4_apply (v21 v22 : Vec Ideal S128x128 .f32) (v24 : Vec Ideal S1x128 .f32) (v30 : Vec Ideal S128x10 .f32)
    (v32 : Vec Ideal S1x10 .f32) (g : Fin 128) (o : Fin 10) :
    k5_pay4 v21 v22 v24 v30 v32 (ix2 g o)
      = Spec.head (Spec.cur2 v21) (Spec.cur2 v22) (Spec.row v24) (Spec.cur2 v30) (Spec.row v32) g o := by
  unfold k5_pay4
  refine (logSoftmax_apply _ _ _ _ _ _ _ g o).trans ?_
  unfold Spec.head
  refine congrArg (fun x => Spec.logSoftmax x g o) (funext fun g' => funext fun o' => ?_)
  refine (cur2_apply _ g' o').trans ?_
  rw [addf_apply, lin2Dot_apply, broadcastTo_1b_ab_apply]
  simp only [shapeCast_self]
  unfold Spec.logits Spec.head1
  refine congrArg (· + v32 (ix2 (0 : Fin 1) o')) (Finset.sum_congr rfl fun k _ => congrArg (· * v30 (ix2 k o')) ?_)
  rw [maximumf_apply, addf_apply, lin1Dot_apply, broadcastTo_1b_ab_apply, broadcast_apply]
  exact congrArg (max _) Ideal.ofBits_zero_f32

end Cert.KernelIdeal.HandValue

end
-- ==== Proof.KIValP5.lean ====
import proofs.«428006_j27865747816548_3_alg».proof.Proof.KIP5
import proofs.«428006_j27865747816548_3_alg».proof.Proof.KIValP5Pay
import proofs.«428006_j27865747816548_3_alg».proof.Proof.Spec

noncomputable section

namespace Cert.KernelIdeal.HandValue

open Cert.KernelIdeal Cert.KernelIdeal.Gen Cert.KernelIdeal.Hand
open Idealize.ShloMosaic Idealize.ShloMosaic.ValueIdx Idealize.ShloMosaic.TcCoe Idealize.SL.Sem

variable (V : (c : Dev nD) → (b : Ref sig .tc) → Buf (Elt Ideal) ((c : Thread nD τ).loc b))

def ext0 (f : Fin 20000 → EReal) (i : ℕ) : EReal := if h : i < 20000 then f ⟨i, h⟩ else 0

theorem zero5s_apply (g d : Fin 128) : zero5s (F := Ideal) (ix2 g d) = 0 := by
  unfold zero5s
  rw [View.canon_unit_zero hz5]
  exact pay1_apply g d

-- Every access of the accumulating step is through a whole rectangle at the origin.
theorem contrib5_apply (h : Vec Ideal S4000x128 .f32) (b : Vec Ideal S4000x1 .i32) (s : Vec Ideal S128x128 .f32) (g d : Fin 128) :
    contrib5 h b s (ix2 g d)
      = s (ix2 g d) + ∑ p : Fin 4000, (if b (ix2 p 0) = BitVec.ofNat 32 g.val then (1 : EReal) else 0) * h (ix2 p d) := by
  rw [contrib5_eq, View.ld_unit_zero hz5 _ h, View.ld_unit_zero hz5 _ b]
  exact pay3_apply h b s g d

theorem head5_apply (s w1 : Vec Ideal S128x128 .f32) (b1 : Vec Ideal S1x128 .f32) (w2 : Vec Ideal S128x10 .f32)
    (b2 : Vec Ideal S1x10 .f32) (g : Fin 128) (o : Fin 10) :
    head5 s w1 b1 w2 b2 (ix2 g o) = Spec.head (Spec.cur2 s) (Spec.cur2 w1) (Spec.row b1) (Spec.cur2 w2) (Spec.row b2) g o := by
  rw [head5_eq, View.ld_unit_zero hz5 _ w1, View.ld_unit_zero hz5 _ b1, View.ld_unit_zero hz5 _ w2, View.ld_unit_zero hz5 _ b2]
  exact pay4_apply s w1 b1 w2 b2 g o

abbrev hArr5 (c : Dev nD) : Vec Ideal S20000x128 .f32 := V c main_v168
abbrev idArr5 (c : Dev nD) : Vec Ideal S20000x1 .i32 := V c main_v169

theorem idx_facts5 : ∀ t : Fin cfg5.N, win5_0.index t 0 = t.val ∧ win5_1.index t 0 = t.val :=
  (by decide +kernel : ∀ t : Fin grid5.N, _)

-- A block of 4000 rows at block index `n` starts at row `4000 n` and has unit stride.
theorem row_emb5 {m : ℕ} {off : Fin 2 → Nat} {inb} (n : Nat) (h0 : off 0 = n * 4000) (h1 : off 1 = 0) (p : Fin 4000) (j : Fin m)
    (r : Fin 20000) (hr : r.val = 4000 * n + p.val) :
    (Rect.unit (s := ⟨2, ![20000, m]⟩) off (⟨2, ![4000, m]⟩ : Shape).size inb).emb (ix2 p j) = ix2 r j :=
  Shape.idx_ext₂ (by show off 0 + 1 * p.val = r.val; omega) (by show off 1 + 1 * j.val = j.val; omega)

-- A block of the array's own size at the origin is the array.
theorem blk_fixed5 (c : Dev nD) (t : Fin cfg5.N) :
    iblk5 V c 2 t = V c main_arg11 ∧ iblk5 V c 3 t = V c main_v170 ∧ iblk5 V c 4 t = V c main_arg13 ∧ iblk5 V c 5 t = V c main_v171 := by
  refine ⟨?_, ?_, ?_, ?_⟩ <;> exact Memref.read_access_unit_zero _ _ (funext fun a => by fin_cases a <;> rfl) _ _

def nodeTerm (c : Dev nD) (g d : Fin 128) (n : Fin 20000) : EReal :=
  (if idArr5 V c (ix2 n (0 : Fin 1)) = BitVec.ofNat 32 g.val then (1 : EReal) else 0) * hArr5 V c (ix2 n d)

theorem tile_sum (c : Dev nD) (t : Fin cfg5.N) (g d : Fin 128) :
    ∑ p : Fin 4000, (if iblk5 V c 1 t (ix2 p (0 : Fin 1)) = BitVec.ofNat 32 g.val then (1 : EReal) else 0) * iblk5 V c 0 t (ix2 p d)
      = ∑ p ∈ Finset.range 4000, ext0 (nodeTerm V c g d) (4000 * t.val + p) := by
  obtain ⟨e0, e1⟩ := idx_facts5 t
  rw [Finset.sum_range]
  refine Finset.sum_congr rfl fun p _ => ?_
  have ht := Nat.lt_of_lt_of_eq t.isLt N_5
  have hlt : 4000 * t.val + p.val < 20000 := by have := p.isLt; omega
  have hh : iblk5 V c 0 t (ix2 p d) = hArr5 V c (ix2 ⟨_, hlt⟩ d) :=
    congrArg (hArr5 V c) (row_emb5 t.val (congrArg (· * 4000) e0) rfl p d _ rfl)
  have hi : iblk5 V c 1 t (ix2 p (0 : Fin 1)) = idArr5 V c (ix2 ⟨_, hlt⟩ 0) :=
    congrArg (idArr5 V c) (row_emb5 t.val (congrArg (· * 4000) e1) rfl p 0 _ rfl)
  rw [ext0, dif_pos hlt, hh, hi]
  rfl

theorem acc5_apply (c : Dev nD) (g d : Fin 128) : ∀ (n : ℕ) (hn : n < cfg5.N),
    acc5 V c n hn (ix2 g d)
      = ∑ i ∈ Finset.range (4000 * (n + 1)), ext0 (nodeTerm V c g d) i
  | 0, hn => by
    rw [acc5_zero, contrib5_apply, zero5s_apply, Nat.mul_succ, Finset.sum_range_add, Nat.mul_zero, Finset.sum_range_zero]
    exact congrArg (_ + ·) (tile_sum V c ⟨0, hn⟩ g d)
  | n + 1, hn => by
    rw [acc5_succ, contrib5_apply, acc5_apply c g d n (Nat.lt_of_succ_lt hn), Nat.mul_succ 4000 (n + 1), Finset.sum_range_add]
    exact congrArg (_ + ·) (tile_sum V c ⟨n + 1, hn⟩ g d)

theorem pooled5_eq (c : Dev nD) (h4 : 4 < cfg5.N) :
    Spec.cur2 (acc5 V c 4 h4) = Spec.pool (fun n => idArr5 V c (ix2 n (0 : Fin 1))) (Spec.cur2 (hArr5 V c)) := by
  funext g d
  refine (cur2_apply _ g d).trans ((acc5_apply V c g d 4 h4).trans ?_)
  exact (Finset.sum_range _).trans (Finset.sum_congr rfl fun i _ => dif_pos i.isLt)

-- The output window's block at the last point is the whole output.
theorem flushed5_eq (c : Dev nD) (h4 : 4 < cfg5.N) (t : Fin cfg5.N) (hf : (cfg5.win 6).flush t = true) :
    (dat5 V c).flushed 6 t = ((cfg5.win 6).blk t).view.read (Elt Ideal) (outAt5 V c 4 h4) := by
  have ht : t.val = 4 := by have := (flush5_6 t).mp hf; have := Nat.lt_of_lt_of_eq t.isLt N_5; omega
  obtain rfl : t = ⟨4, h4⟩ := Fin.ext ht
  show (cfg5.win 6).cut (grid5.coords ⟨4, h4⟩) ((dat5 V c).after 6 ⟨4, h4⟩) = _
  rw [after5_6]
  refine Eq.symm ?_
  exact Memref.read_access_unit_zero _ _ (funext fun a => by fin_cases a <;> rfl) _ _

theorem cover5 (h4 : 4 < cfg5.N) (i : S128x10.Idx) :
    ∃ t : Fin cfg5.N, (cfg5.win 6).flush t = true ∧ i ∈ ((cfg5.win 6).blk t).view.set := by
  refine ⟨⟨4, h4⟩, (flush5_6 _).mpr rfl, ?_⟩
  show i ∈ ((View.whole main_v172).slice (win5_6.rect ⟨4, h4⟩)).set
  rw [View.set_slice_whole]
  exact View.mem_set_unit_zero (funext fun a => by fin_cases a <;> rfl) _ i

theorem arr5_refs (c : Dev nD) :
    (dat5 (F := Ideal) V c).arrAt 6 cfg5.N
      = Spec.unc2 (Spec.head
          (Spec.pool (fun n => (V c main_v169 : Vec Ideal S20000x1 .i32) (ix2 n (0 : Fin 1)))
            (Spec.cur2 (V c main_v168 : Vec Ideal S20000x128 .f32)))
          (Spec.cur2 (V c main_arg11 : Vec Ideal S128x128 .f32)) (Spec.row (V c main_v170 : Vec Ideal S1x128 .f32))
          (Spec.cur2 (V c main_arg13 : Vec Ideal S128x10 .f32)) (Spec.row (V c main_v171 : Vec Ideal S1x10 .f32))) := by
  have h4 : 4 < cfg5.N := by rw [show cfg5.N = 5 from N_5]; decide
  obtain ⟨e2, e3, e4, e5⟩ := blk_fixed5 V c ⟨4, h4⟩
  refine ((dat5 V c).arrAt_eq_of_cover 6 (outAt5 V c 4 h4) (flushed5_eq V c h4) (cover5 h4)).trans (funext fun i => ?_)
  obtain ⟨g, o, rfl⟩ : ∃ (g : Fin 128) (o : Fin 10), i = ix2 g o := ⟨i 0, i 1, eq_ix2 i⟩
  rw [outAt5_last, e2, e3, e4, e5, head5_apply, pooled5_eq]
  rfl

end Cert.KernelIdeal.HandValue

end
-- ==== Proof.KIValue.lean ====
import proofs.«428006_j27865747816548_3_alg».proof.Proof.KIChain
import proofs.«428006_j27865747816548_3_alg».proof.Proof.KIRun
import proofs.«428006_j27865747816548_3_alg».proof.Proof.KIValA0
import proofs.«428006_j27865747816548_3_alg».proof.Proof.KIValA1
import proofs.«428006_j27865747816548_3_alg».proof.Proof.KIValA2
import proofs.«428006_j27865747816548_3_alg».proof.Proof.KIValA3
import proofs.«428006_j27865747816548_3_alg».proof.Proof.KIValA4
import proofs.«428006_j27865747816548_3_alg».proof.Proof.KIValP5
import proofs.«428006_j27865747816548_3_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe

theorem kernel_total (m : (ℓ : Loc nD τ sig) → Buf (Elt Ideal) ℓ) (c : Dev nD) :
    Gen.V12 m (outs m) c main_v172 = Cert.Spec.unc2 (Cert.Spec.total (fun h => Cert.Spec.cur2 (a := 20000) (b := 128) (aggK (Cert.Spec.unc2 h) (m ((c.tc : Thread nD τ).loc main_arg1)))) (Cert.Spec.cur2 (a := 20000) (b := 128) (m ((c.tc : Thread nD τ).loc main_arg0))) (Cert.Spec.cur1 (m ((c.tc : Thread nD τ).loc main_arg2))) (Cert.Spec.slab3 (m ((c.tc : Thread nD τ).loc main_arg3))) (Cert.Spec.slab2 (m ((c.tc : Thread nD τ).loc main_arg4))) (Cert.Spec.slab2 (m ((c.tc : Thread nD τ).loc main_arg5))) (Cert.Spec.slab2 (m ((c.tc : Thread nD τ).loc main_arg6))) (Cert.Spec.slab2 (m ((c.tc : Thread nD τ).loc main_arg7))) (Cert.Spec.slab2 (m ((c.tc : Thread nD τ).loc main_arg8))) (Cert.Spec.slab3 (m ((c.tc : Thread nD τ).loc main_arg9))) (Cert.Spec.slab2 (m ((c.tc : Thread nD τ).loc main_arg10))) (Cert.Spec.cur2 (a := 128) (b := 128) (m ((c.tc : Thread nD τ).loc main_arg11))) (Cert.Spec.cur1 (m ((c.tc : Thread nD τ).loc main_arg12))) (Cert.Spec.cur2 (a := 128) (b := 10) (m ((c.tc : Thread nD τ).loc main_arg13))) (Cert.Spec.cur1 (m ((c.tc : Thread nD τ).loc main_arg14)))) :=
  total_of_chain m (outs m) c
    ((V2_out m c).trans (arr0 (fun c b => Gen.V1 m c b) c))
    ((V4_out m c).trans (arr1 (fun c b => Gen.V3 m (outs m) c b) c))
    ((V6_out m c).trans (arr2 (fun c b => Gen.V5 m (outs m) c b) c))
    ((V8_out m c).trans (arr3 (fun c b => Gen.V7 m (outs m) c b) c))
    ((V10_out m c).trans (arr4 (fun c b => Gen.V9 m (outs m) c b) c))
    ((V12_out m c).trans (arr5_refs (fun c b => Gen.V11 m (outs m) c b) c))

end Cert.KernelIdeal.HandValue

end
-- ==== Proof.RefLayer.lean ====
import proofs.«428006_j27865747816548_3_alg».proof.Proof.RefDefs
import proofs.«428006_j27865747816548_3_alg».proof.Proof.Spec
import Idealize.ShloMosaic.Lib.ValueLayout
import Idealize.ShloMosaic.Lib.StackMember

noncomputable section

namespace Cert.ReferenceIdeal.RefValue

open Cert.ReferenceIdeal Cert.ReferenceIdeal.Gen Idealize.ShloMosaic Idealize.ShloMosaic.ValueIdx

-- A vector laid along the columns and repeated down the rows reads, at `(r, c)`, its entry `c`.
theorem rowBcast_apply {α : Type} {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (c : Fin b) :
    broadcastInDim ⟨2, ![a, b]⟩ ![0, 1] h2 (broadcastInDim ⟨2, ![1, b]⟩ ![1] h1 x) (ix2 r c) = x (ix1 c) :=
  (broadcastInDim_oneRow_apply h2 _ r c).trans
    (broadcastInDim_apply _ h1 x (ix2 (0 : Fin 1) c) (ix1 c) fun i => match i with
      | ⟨0, _⟩ => by have := c.isLt; show c.val = if b = 1 then 0 else c.val; split <;> omega)

theorem zero_apply {T : Shape} (h : S_.BroadcastsInDim T ![]) (i : T.Idx) :
    broadcastInDim T ![] h (constant (F := Ideal) S_ .f32 0x00000000#32) i = 0 :=
  (broadcastInDim_apply _ h _ i ix0 (fun a => a.elim0)).trans ((constant_apply _ _).trans Ideal.ofBits_zero_f32)

theorem eps_apply (i : S128.Idx) :
    broadcastInDim S128 ![] bcast_S_S128 (constant (F := Ideal) S_ .f32 0x3727C5AC#32) i = Cert.Spec.eps :=
  (broadcastInDim_apply _ bcast_S_S128 _ i ix0 (fun a => a.elim0)).trans (constant_apply _ _)

theorem dot_apply (x : FVec Ideal S20000x128 .f32) (w : FVec Ideal S128x128 .f32) (r : Fin 20000) (c : Fin 128) :
    Host.dotGeneral dot_S20000x128_S128x128_S20000x128_1_0_0_1_n_n none x w (ix2 r c) = ∑ k : Fin 128, x (ix2 r k) * w (ix2 k c) :=
  StackMember.dotGeneral_plain_apply (m := 20000) (n := 128) none x w r c

-- Slab `l` is the slice of one row at offset `l`, with its unit axis dropped.
theorem w2_apply (l : Fin 5) (a : FVec Ideal S5x128 .f32) : Cert.Spec.cur1 (w2 l a) = Cert.Spec.slab2 a l := by
  funext q
  show w2 l a (ix1 q) = a (ix2 l q)
  match l with
  | 0 | 1 | 2 | 3 | 4 =>
    exact (shapeCast_1a_a_apply _ _ q).trans (slice2_axis0_apply _ a _ (0 : Fin 1) q _ (by rfl))

theorem w3_apply (l : Fin 5) (a : FVec Ideal S5x128x128 .f32) : Cert.Spec.cur2 (w3 l a) = Cert.Spec.slab3 a l := by
  funext p q
  show w3 l a (ix2 p q) = a (ix3 l p q)
  match l with
  | 0 | 1 | 2 | 3 | 4 =>
    exact (shapeCast_1ab_ab_apply _ _ p q).trans
      (extractStridedSlice_apply _ a _ (ix3 (0 : Fin 1) p q) _ (fun ax => by
        match ax with
        | ⟨0, _⟩ => rfl
        | ⟨1, _⟩ => exact (Nat.zero_add _).symm
        | ⟨2, _⟩ => exact (Nat.zero_add _).symm))

theorem layerH_apply (h : FVec Ideal S20000x128 .f32) (ei : IVec S2x640000 32) (W1 : FVec Ideal S128x128 .f32)
    (b1 g bt mu v : FVec Ideal S128 .f32) (W2 : FVec Ideal S128x128 .f32) (b2 : FVec Ideal S128 .f32)
    (r : Fin 20000) (c : Fin 128) :
    layerH h ei W1 b1 g bt mu v W2 b2 (ix2 r c)
      = Cert.Spec.layer (Cert.Spec.cur2 h) (Cert.Spec.cur2 (aggH h ei)) (Cert.Spec.cur2 W1) (Cert.Spec.cur1 b1)
          (Cert.Spec.cur1 g) (Cert.Spec.cur1 bt) (Cert.Spec.cur1 mu) (Cert.Spec.cur1 v) (Cert.Spec.cur2 W2)
          (Cert.Spec.cur1 b2) r c := by
  unfold layerH
  rw [maximumf_apply, zero_apply, addf_apply, dot_apply, rowBcast_apply]
  unfold Cert.Spec.layer
  refine congrArg₂ max (congrArg₂ (· + ·) (Finset.sum_congr rfl fun k _ => congrArg (· * W2 (ix2 k c)) ?_) rfl) rfl
  rw [maximumf_apply, zero_apply, addf_apply, mulf_apply, mulf_apply, subf_apply, addf_apply, dot_apply,
    rowBcast_apply, rowBcast_apply, rowBcast_apply, rowBcast_apply, rowBcast_apply]
  show max (_ * Ideal.rsqrt (v (ix1 k) + broadcastInDim S128 ![] bcast_S_S128 (constant (F := Ideal) S_ .f32 0x3727C5AC#32) (ix1 k)) + _) 0 = _
  rw [eps_apply]
  rfl

end Cert.ReferenceIdeal.RefValue

end
-- ==== Proof.LibScatterUnit.lean ====
import Idealize.ShloMosaic.PureOps.Ideal
import Idealize.ShloMosaic.Lib.ValueIdx
noncomputable section
namespace Cert.Lib.ScatterUnit
open Idealize.ShloMosaic Idealize.ShloMosaic.ValueIdx

abbrev dims2 (N E H : Nat) (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ :=
  { updateWindowDims := [1], insertedWindowDims := [0], scatterDimsToOperandDims := [0], indexVectorDim := 1, wf := wf }

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hh
    constructor
    · intro he a
      have h1 := congrFun (Option.some.inj he) a
      have h2 := congrArg Fin.val h1
      simp only at h2
      have h3 := (hh a).1
      omega
    · intro he
      congr 1
      funext a
      apply Fin.ext
      simp only
      have h1 := he a
      omega
  · rename_i hh
    constructor
    · intro he; exact absurd he (by simp)
    · intro he
      exfalso; apply hh
      intro a
      have h1 := he a
      have h2 := (i a).isLt
      omega

section Rank2
variable {N E H w : Nat} (wf : ScatterDims.WF ⟨2, ![N, H]⟩ ⟨2, ![E, 1]⟩ ⟨2, ![E, H]⟩ [1] [0] [0] 1)
  (idx : IVec ⟨2, ![E, 1]⟩ w) (j : (⟨2, ![E, H]⟩ : Shape).Idx)

theorem start2_0 : (dims2 N E H wf).start j idx 0 = (idx (ix2 (j 0) 0)).toInt := by
  unfold ScatterDims.start
  rw [dif_pos (show (0 : Fin 2) ∈ (dims2 N E H wf).scatterDimsToOperandDims from List.mem_singleton.mpr rfl)]
  exact congrArg (fun i => (idx i).toInt) (funext fun b => Fin.ext (by
    match b with
    | ⟨0, _⟩ => rfl
    | ⟨1, _⟩ => rfl))

theorem start2_1 : (dims2 N E H wf).start j idx 1 = 0 :=
  dif_neg fun hm => absurd (List.mem_singleton.mp hm) (by decide : ¬ (1 : Fin 2) = 0)

theorem window2_0 : (dims2 N E H wf).window j 0 = 0 :=
  dif_neg fun hm => absurd (List.mem_singleton.mp hm) (by decide : ¬ (0 : Fin 2) = 1)

theorem window2_1 : (dims2 N E H wf).window j 1 = (j 1).val :=
  dif_pos (show (1 : Fin 2) ∈ (dims2 N E H wf).sKept from List.mem_singleton.mpr rfl)
end Rank2

-- On the row axis the update lands where its index word says, on the column axis where it sits in the window.
theorem res2_iff {N E H w : Nat} (wf : ScatterDims.WF ⟨2, ![N, H]⟩ ⟨2, ![E, 1]⟩ ⟨2, ![E, H]⟩ [1] [0] [0] 1)
    (idx : IVec ⟨2, ![E, 1]⟩ w) (j : (⟨2, ![E, H]⟩ : Shape).Idx) (n : Fin N) (h : Fin H) :
    (dims2 N E H wf).resultIdx? j idx = some (ix2 n h)
      ↔ (idx (ix2 (j 0) 0)).toInt = (n.val : Int) ∧ (j 1).val = h.val := by
  rw [resultIdx?_eq_some_iff, Fin.forall_fin_two, start2_0, window2_0, start2_1, window2_1]
  show _ + ((0 : Nat) : Int) = (n.val : Int) ∧ (0 : Int) + ((j 1).val : Int) = (h.val : Int) ↔ _
  constructor <;> rintro ⟨h0, h1⟩ <;> constructor <;> omega

end Cert.Lib.ScatterUnit
end
-- ==== Proof.LibPoolScatter.lean ====
import Idealize.ShloMosaic.PureOps.Ideal
import Idealize.ShloMosaic.Lib.ValueIdx
import proofs.«428006_j27865747816548_3_alg».proof.Proof.LibScatterUnit
noncomputable section
namespace Cert.Lib.PoolScatter
open Idealize.ShloMosaic Idealize.ShloMosaic.ValueIdx Cert.Lib.ScatterUnit

theorem toInt_eq_natCast_iff {w : Nat} (x : BitVec w) (g : Nat) (hg : 2 * g < 2 ^ w) :
    x.toInt = (g : Int) ↔ x = BitVec.ofNat w g := by
  have hx := x.isLt
  rw [BitVec.toInt_eq_toNat_cond]
  generalize hP : 2 ^ w = P at hg hx
  constructor
  · intro h
    apply BitVec.eq_of_toNat_eq
    rw [BitVec.toNat_ofNat, hP, Nat.mod_eq_of_lt (by omega)]
    split at h <;> omega
  · rintro rfl
    rw [BitVec.toNat_ofNat, hP, Nat.mod_eq_of_lt (by omega), if_pos hg]

theorem scatterAdd2_eq_sum {G E H : Nat} (hG : 2 * G ≤ 2 ^ 32)
    (wf : ScatterDims.WF ⟨2, ![G, H]⟩ ⟨2, ![E, 1]⟩ ⟨2, ![E, H]⟩ [1] [0] [0] 1) (idx : IVec ⟨2, ![E, 1]⟩ 32)
    (x : (⟨2, ![G, H]⟩ : Shape).Idx → EReal) (u : (⟨2, ![E, H]⟩ : Shape).Idx → EReal) (g : Fin G) (c : Fin H) :
    Ideal.hostScatterAdd (dims2 G E H wf) x idx u (ix2 g c)
      = x (ix2 g c) + ∑ e : Fin E, (if idx (ix2 e 0) = BitVec.ofNat 32 g.val then 1 else 0) * u (ix2 e c) := by
  unfold Ideal.hostScatterAdd
  show x (ix2 g c) + _ = x (ix2 g c) + _
  congr 1
  have hg : 2 * g.val < 2 ^ 32 := by have := g.isLt; omega
  rw [Finset.sum_filter, sum_idx2]
  refine Finset.sum_congr rfl fun e _ => ?_
  by_cases he : idx (ix2 e 0) = BitVec.ofNat 32 g.val
  · rw [if_pos he, one_mul, Finset.sum_eq_single c
      (fun c' _ hc' => if_neg fun hl => hc' (Fin.ext ((res2_iff wf idx (ix2 e c') g c).mp hl).2))
      (fun hc => absurd (Finset.mem_univ c) hc)]
    exact if_pos ((res2_iff wf idx (ix2 e c) g c).mpr ⟨(toInt_eq_natCast_iff _ _ hg).mpr he, rfl⟩)
  · rw [if_neg he, zero_mul]
    exact Finset.sum_eq_zero fun c' _ =>
      if_neg fun hl => he ((toInt_eq_natCast_iff _ _ hg).mp ((res2_iff wf idx (ix2 e c') g c).mp hl).1)

end Cert.Lib.PoolScatter
end
-- ==== Proof.RefHead.lean ====
import proofs.«428006_j27865747816548_3_alg».proof.Proof.RefDefs
import proofs.«428006_j27865747816548_3_alg».proof.Proof.RefLayer
import proofs.«428006_j27865747816548_3_alg».proof.Proof.Spec
import proofs.«428006_j27865747816548_3_alg».proof.Proof.LibPoolScatter
import Idealize.ShloMosaic.Lib.StackMember
import Idealize.ShloMosaic.Lib.IdealHost

noncomputable section

namespace Cert.ReferenceIdeal.RefValue

open Cert.ReferenceIdeal Cert.ReferenceIdeal.Gen Idealize.ShloMosaic Idealize.ShloMosaic.ValueIdx

theorem scatterAdd_pool_of (d : ScatterDims S128x128 S20000x1 S20000x128)
    (huw : d.updateWindowDims = [1]) (hiw : d.insertedWindowDims = [0])
    (hsd : d.scatterDimsToOperandDims = [0]) (hiv : d.indexVectorDim = 1)
    (b : IVec S20000 32) (h : FVec Ideal S20000x128 .f32)
    (x : FVec Ideal S128x128 .f32) (hx : ∀ i, x i = 0)
    (idx : IVec S20000x1 32) (hidx : ∀ n : Fin 20000, idx (ix2 n 0) = b (ix1 n)) (g c : Fin 128) :
    Ideal.hostScatterAdd d x idx h (ix2 g c) = Cert.Spec.pool (Cert.Spec.cur1 b) (Cert.Spec.cur2 h) g c := by
  obtain ⟨uw, iw, sd, iv, wf⟩ := d
  simp only at huw hiw hsd hiv
  subst huw hiw hsd hiv
  refine (Cert.Lib.PoolScatter.scatterAdd2_eq_sum (G := 128) (E := 20000) (H := 128) (by norm_num) wf idx x h g c).trans ?_
  rw [hx, zero_add]
  show _ = ∑ n : Fin 20000, (if b (ix1 n) = BitVec.ofNat 32 g.val then (1 : EReal) else 0) * h (ix2 n c)
  exact Finset.sum_congr rfl fun n _ => by rw [hidx n]

-- A vector laid down the rows reads, at `(g, 0)`, its entry `g`.
theorem colVec_apply {α : Type} {a : ℕ} (x : (⟨1, ![a]⟩ : Shape).Idx → α)
    (h : (⟨1, ![a]⟩ : Shape).BroadcastsInDim ⟨2, ![a, 1]⟩ ![0]) (g : Fin a) :
    broadcastInDim ⟨2, ![a, 1]⟩ ![0] h x (ix2 g 0) = x (ix1 g) :=
  broadcastInDim_apply _ h x (ix2 g 0) (ix1 g) fun i => match i with
    | ⟨0, _⟩ => by have := g.isLt; show g.val = if a = 1 then 0 else g.val; split <;> omega

-- A column repeated along the rows reads, at `(g, o)`, the column's entry `g`.
theorem colBcast_apply {α : Type} {a b : ℕ} (x : (⟨2, ![a, 1]⟩ : Shape).Idx → α)
    (h : (⟨2, ![a, 1]⟩ : Shape).BroadcastsInDim ⟨2, ![a, b]⟩ ![0, 1]) (g : Fin a) (o : Fin b) :
    broadcastInDim ⟨2, ![a, b]⟩ ![0, 1] h x (ix2 g o) = x (ix2 g 0) :=
  broadcastInDim_apply _ h x (ix2 g o) (ix2 g 0) fun i => match i with
    | ⟨0, _⟩ => by have := g.isLt; show g.val = if a = 1 then 0 else g.val; split <;> omega
    | ⟨1, _⟩ => (if_pos rfl).symm

theorem poolH_apply (b : IVec S20000 32) (h : FVec Ideal S20000x128 .f32) (g c : Fin 128) :
    poolH b h (ix2 g c) = Cert.Spec.pool (Cert.Spec.cur1 b) (Cert.Spec.cur2 h) g c :=
  scatterAdd_pool_of scatter_S128x128_S20000x1_S20000x128_1_0_0_1 rfl rfl rfl rfl b h _ (zero_apply _) _
    (fun n => colVec_apply b _ n) g c

theorem dot1_apply (l r : FVec Ideal S128x128 .f32) (g k : Fin 128) :
    Host.dotGeneral (F := Ideal) dot_S128x128_S128x128_S128x128_1_0_0_1_n_n none l r (ix2 g k)
      = ∑ d : Fin 128, l (ix2 g d) * r (ix2 d k) :=
  StackMember.dotGeneral_plain_apply (m := 128) (n := 128) none l r g k

theorem dot2_apply (l : FVec Ideal S128x128 .f32) (r : FVec Ideal S128x10 .f32) (g : Fin 128) (o : Fin 10) :
    Host.dotGeneral (F := Ideal) dot_S128x128_S128x10_S128x10_1_0_0_1_n_n none l r (ix2 g o)
      = ∑ k : Fin 128, l (ix2 g k) * r (ix2 k o) :=
  StackMember.dotGeneral_plain_apply (m := 128) (n := 10) none l r g o

theorem logitsH_apply (b : IVec S20000 32) (h : FVec Ideal S20000x128 .f32) (l1W : FVec Ideal S128x128 .f32)
    (l1b : FVec Ideal S128 .f32) (l2W : FVec Ideal S128x10 .f32) (l2b : FVec Ideal S10 .f32) (g : Fin 128) (o : Fin 10) :
    logitsH b h l1W l1b l2W l2b (ix2 g o)
      = Cert.Spec.logits (Cert.Spec.pool (Cert.Spec.cur1 b) (Cert.Spec.cur2 h)) (Cert.Spec.cur2 l1W) (Cert.Spec.cur1 l1b)
          (Cert.Spec.cur2 l2W) (Cert.Spec.cur1 l2b) g o := by
  unfold logitsH
  rw [addf_apply, dot2_apply, rowBcast_apply]
  unfold Cert.Spec.logits
  refine congrArg (· + l2b (ix1 o)) (Finset.sum_congr rfl fun k _ => ?_)
  refine congrArg (· * l2W (ix2 k o)) ?_
  rw [maximumf_apply, addf_apply, dot1_apply, rowBcast_apply, zero_apply]
  unfold Cert.Spec.head1
  refine congrArg (fun s => max (s + l1b (ix1 k)) 0) (Finset.sum_congr rfl fun d _ => ?_)
  rw [poolH_apply]
  rfl

theorem ofBits_neg_inf : Ideal.ofBits .f32 0xFF800000#32 = (⊥ : EReal) := by
  simp [Ideal.ofBits, Ideal.ieee]

theorem lift_row (hr : S128x10.Reduces [1] S128) (g : Fin 128) (o : Fin (S128x10.size 1)) :
    hr.lift (ix1 g) o = ix2 g (⟨o.val, o.isLt⟩ : Fin 10) := by
  funext c; apply Fin.ext
  match c with
  | ⟨0, _⟩ => rfl
  | ⟨1, _⟩ => rfl

theorem reduceMax_apply (x : FVec Ideal S128x10 .f32) (g : Fin 128) :
    Host.reduce FloatOps.maximumf x (constant (F := Ideal) S_ .f32 0xFF800000#32) reducesTo_S128x10_S128_d1 h_S_ (ix1 g)
      = Cert.Spec.rowMax (fun o => x (ix2 g o)) := by
  have hr : S128x10.Reduces [1] S128 := by decide
  rw [Host.reduce_eq_fold_single FloatOps.maximumf x _ reducesTo_S128x10_S128_d1 hr h_S_]
  unfold Cert.Spec.rowMax
  rw [constant_apply, ofBits_neg_inf]
  have hf : (x ∘ hr.lift (ix1 g)) = fun o : Fin 10 => x (ix2 g o) := funext fun o => congrArg x (lift_row hr g o)
  exact congrArg (fun f => Finset.fold max (⊥ : EReal) f (Finset.univ : Finset (Fin 10))) hf

theorem negInf_apply (i : S128.Idx) :
    broadcastInDim S128 ![] bcast_S_S128 (constant (F := Ideal) S_ .f32 0xFF800000#32) i = (⊥ : EReal) := by
  rw [broadcastInDim_scalar_apply]
  exact ofBits_neg_inf

theorem rowMaxH_apply (x : FVec Ideal S128x10 .f32) (g : Fin 128) (o : Fin 10) :
    rowMaxH x (ix2 g o) = Cert.Spec.rowMax (fun o' => x (ix2 g o')) := by
  unfold rowMaxH
  rw [colBcast_apply, colVec_apply, maximumf_apply, negInf_apply, reduceMax_apply]
  exact max_eq_right bot_le

theorem reduceSum_apply (e : FVec Ideal S128x10 .f32) (g : Fin 128) :
    Host.reduceAdd (F := Ideal) e (constant S_ .f32 0x00000000#32) reducesTo_S128x10_S128_d1 h_S_ (ix1 g)
      = ∑ o : Fin 10, e (ix2 g o) := by
  have hr : S128x10.Reduces [1] S128 := by decide
  rw [hostReduceAdd_apply, Ideal.hostReduceAdd_single reducesTo_S128x10_S128_d1 hr, constant_apply, Ideal.ofBits_zero_f32, zero_add]
  exact Finset.sum_congr rfl fun o _ => congrArg e (lift_row hr g o)

theorem logSoftmaxH_apply (x : FVec Ideal S128x10 .f32) (g : Fin 128) (o : Fin 10) :
    logSoftmaxH x (ix2 g o) = Cert.Spec.logSoftmax (Cert.Spec.cur2 x) g o := by
  unfold logSoftmaxH
  rw [subf_apply, subf_apply, colBcast_apply]
  show _ - Ideal.log (broadcastInDim (s := S128) S128x1 ![0] bcast_S128_S128x1_0 _ (ix2 g 0)) = _
  rw [colVec_apply, reduceSum_apply, rowMaxH_apply]
  unfold Cert.Spec.logSoftmax
  refine congrArg (fun s => (x (ix2 g o) - Cert.Spec.rowMax (fun o' => x (ix2 g o'))) - Ideal.log s)
    (Finset.sum_congr rfl fun o' _ => ?_)
  show Ideal.exp (x (ix2 g o') - rowMaxH x (ix2 g o')) = _
  rw [rowMaxH_apply]
  rfl

theorem headH_apply (b : IVec S20000 32) (h : FVec Ideal S20000x128 .f32) (l1W : FVec Ideal S128x128 .f32)
    (l1b : FVec Ideal S128 .f32) (l2W : FVec Ideal S128x10 .f32) (l2b : FVec Ideal S10 .f32) (g : Fin 128) (o : Fin 10) :
    headH b h l1W l1b l2W l2b (ix2 g o)
      = Cert.Spec.head (Cert.Spec.pool (Cert.Spec.cur1 b) (Cert.Spec.cur2 h)) (Cert.Spec.cur2 l1W) (Cert.Spec.cur1 l1b)
          (Cert.Spec.cur2 l2W) (Cert.Spec.cur1 l2b) g o := by
  unfold headH
  rw [logSoftmaxH_apply]
  exact congrArg (fun x => Cert.Spec.logSoftmax x g o)
    (funext fun g' => funext fun o' => logitsH_apply b h l1W l1b l2W l2b g' o')

end Cert.ReferenceIdeal.RefValue

end
-- ==== Proof.RefTotal.lean ====
import proofs.«428006_j27865747816548_3_alg».proof.Proof.RefDefs
import proofs.«428006_j27865747816548_3_alg».proof.Proof.RefLayer
import proofs.«428006_j27865747816548_3_alg».proof.Proof.RefHead
import proofs.«428006_j27865747816548_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.ValueIdx

-- Layer `l` of the program, by its two coordinates, is the specification's layer on slab `l` of each stacked parameter.
theorem L_cur2 (m : (ℓ : Loc nD τ sig) → Buf (Elt Ideal) ℓ) (c : Dev nD) (l : Fin 5) (h : FVec Ideal S20000x128 .f32) :
    Cert.Spec.cur2 (L m c l h)
      = Cert.Spec.layer (Cert.Spec.cur2 h) (Cert.Spec.cur2 (aggH (Cert.Spec.unc2 (Cert.Spec.cur2 h)) (m ((c.tc : Thread nD τ).loc main_arg1))))
          (Cert.Spec.slab3 (m ((c.tc : Thread nD τ).loc main_arg3)) l) (Cert.Spec.slab2 (m ((c.tc : Thread nD τ).loc main_arg4)) l) (Cert.Spec.slab2 (m ((c.tc : Thread nD τ).loc main_arg5)) l) (Cert.Spec.slab2 (m ((c.tc : Thread nD τ).loc main_arg6)) l)
          (Cert.Spec.slab2 (m ((c.tc : Thread nD τ).loc main_arg7)) l) (Cert.Spec.slab2 (m ((c.tc : Thread nD τ).loc main_arg8)) l) (Cert.Spec.slab3 (m ((c.tc : Thread nD τ).loc main_arg9)) l) (Cert.Spec.slab2 (m ((c.tc : Thread nD τ).loc main_arg10)) l) := by
  funext r k
  refine (layerH_apply h _ _ _ _ _ _ _ _ _ r k).trans ?_
  rw [w3_apply, w3_apply, w2_apply, w2_apply, w2_apply, w2_apply, w2_apply, w2_apply, Cert.Spec.unc2_cur2]

theorem ref_total (m : (ℓ : Loc nD τ sig) → Buf (Elt Ideal) ℓ) (c : Dev nD) :
    headH (m ((c.tc : Thread nD τ).loc main_arg2)) (L m c 4 (L m c 3 (L m c 2 (L m c 1 (L m c 0 (m ((c.tc : Thread nD τ).loc main_arg0))))))) (m ((c.tc : Thread nD τ).loc main_arg11)) (m ((c.tc : Thread nD τ).loc main_arg12)) (m ((c.tc : Thread nD τ).loc main_arg13)) (m ((c.tc : Thread nD τ).loc main_arg14))
      = Cert.Spec.unc2 (Cert.Spec.total (fun h => Cert.Spec.cur2 (aggH (Cert.Spec.unc2 h) (m ((c.tc : Thread nD τ).loc main_arg1))))
          (Cert.Spec.cur2 (m ((c.tc : Thread nD τ).loc main_arg0))) (Cert.Spec.cur1 (m ((c.tc : Thread nD τ).loc main_arg2))) (Cert.Spec.slab3 (m ((c.tc : Thread nD τ).loc main_arg3)))
          (Cert.Spec.slab2 (m ((c.tc : Thread nD τ).loc main_arg4))) (Cert.Spec.slab2 (m ((c.tc : Thread nD τ).loc main_arg5))) (Cert.Spec.slab2 (m ((c.tc : Thread nD τ).loc main_arg6)))
          (Cert.Spec.slab2 (m ((c.tc : Thread nD τ).loc main_arg7))) (Cert.Spec.slab2 (m ((c.tc : Thread nD τ).loc main_arg8))) (Cert.Spec.slab3 (m ((c.tc : Thread nD τ).loc main_arg9)))
          (Cert.Spec.slab2 (m ((c.tc : Thread nD τ).loc main_arg10))) (Cert.Spec.cur2 (m ((c.tc : Thread nD τ).loc main_arg11))) (Cert.Spec.cur1 (m ((c.tc : Thread nD τ).loc main_arg12)))
          (Cert.Spec.cur2 (m ((c.tc : Thread nD τ).loc main_arg13))) (Cert.Spec.cur1 (m ((c.tc : Thread nD τ).loc main_arg14)))) := by
  funext i
  obtain ⟨g, o, rfl⟩ : ∃ (g : Fin 128) (o : Fin 10), i = ix2 g o := ⟨i 0, i 1, eq_ix2 i⟩
  refine (headH_apply _ _ _ _ _ _ g o).trans ?_
  rw [L_cur2, L_cur2, L_cur2, L_cur2, L_cur2]
  rfl

end Cert.ReferenceIdeal.RefValue

end
-- ==== Proof.Algebraic.lean ====
import proofs.«428006_j27865747816548_3_alg».proof.Defs
import proofs.«428006_j27865747816548_3_alg».proof.Proof.Gen.KernelIdeal
import proofs.«428006_j27865747816548_3_alg».proof.Proof.Gen.ReferenceIdeal
import proofs.«428006_j27865747816548_3_alg».proof.Proof.Gen.Pre_finite_inputs
import proofs.«428006_j27865747816548_3_alg».proof.Proof.KIRun
import proofs.«428006_j27865747816548_3_alg».proof.Proof.KIValue
import proofs.«428006_j27865747816548_3_alg».proof.Proof.RefTotal
import proofs.«428006_j27865747816548_3_alg».proof.Proof.RefRunHand

set_option maxRecDepth 16384

noncomputable section

namespace Cert.Proof.AlgebraicClaim

open Idealize.ShloMosaic Idealize.ShloMosaic.TcCoe Idealize.SL.Sem

theorem algebraic : Cert.algebraic_KernelIdeal_ReferenceIdeal := by
  intro m ρ m' ρ' _ hagree
  refine ⟨fun c => Cert.KernelIdeal.Gen.V12 m (Cert.KernelIdeal.Hand.outs m) c Cert.KernelIdeal.main_v172, ?_, ?_⟩
  · open Cert.KernelIdeal Cert.KernelIdeal.Gen Cert.KernelIdeal.Hand in
    exact (θ_run defs _ _).mono (fun r h c =>
      have a (b : Ref sig .tc) (hb : ¬ (Proc.devRef .tc b : DevRef τ sig).isScoped) : _ = V12 m (outs m) c (Proc.devRef .tc b) :=
        h c _ (mem_uc b hb)
      ⟨a main_v172 (by decide), (a main_arg0 (by decide)).trans (V12_main_arg0 m _ c), (a main_arg1 (by decide)).trans (V12_main_arg1 m _ c), (a main_arg2 (by decide)).trans (V12_main_arg2 m _ c),
        (a main_arg3 (by decide)).trans (V12_main_arg3 m _ c), (a main_arg4 (by decide)).trans (V12_main_arg4 m _ c), (a main_arg5 (by decide)).trans (V12_main_arg5 m _ c),
        (a main_arg6 (by decide)).trans (V12_main_arg6 m _ c), (a main_arg7 (by decide)).trans (V12_main_arg7 m _ c), (a main_arg8 (by decide)).trans (V12_main_arg8 m _ c),
        (a main_arg9 (by decide)).trans (V12_main_arg9 m _ c), (a main_arg10 (by decide)).trans (V12_main_arg10 m _ c), (a main_arg11 (by decide)).trans (V12_main_arg11 m _ c),
        (a main_arg12 (by decide)).trans (V12_main_arg12 m _ c), (a main_arg13 (by decide)).trans (V12_main_arg13 m _ c), (a main_arg14 (by decide)).trans (V12_main_arg14 m _ c)⟩)
      (run_all (F := Ideal) m ρ)
  · refine (θ_run Cert.ReferenceIdeal.defs _ _).mono (fun r h c => ⟨(h c).1.trans ?_, (h c).2⟩)
      (Cert.ReferenceIdeal.HandRun.run m' ρ')
    obtain ⟨a0, a1, a2, a3, a4, a5, a6, a7, a8, a9, a10, a11, a12, a13, a14⟩ := hagree c
    refine (Cert.ReferenceIdeal.RefValue.ref_total m' c).trans (Eq.trans ?_ (Cert.KernelIdeal.HandValue.kernel_total m c).symm)
    rw [a0, a1, a2, a3, a4, a5, a6, a7, a8, a9, a10, a11, a12, a13, a14]
    rfl

end Cert.Proof.AlgebraicClaim

end
-- ==== Proof.lean ====
/- A five-layer graph network (each layer: neighbour sum, an affine map, a column-wise normalisation, relu, a second
   affine map, relu), pooled by graph id, then a two-layer head with a row-wise log-softmax. Over the extended reals a
   product taken block of rows by block of rows is the whole product, and pooling through a 0/1 membership matrix is the
   sum over the members, since 0 * x = 0 and 1 * x = x for every extended real x; no finiteness is used. -/
import proofs.«428006_j27865747816548_3_alg».proof.Defs
import proofs.«428006_j27865747816548_3_alg».proof.Proof.Gen.Kernel
import proofs.«428006_j27865747816548_3_alg».proof.Proof.Gen.KernelIdeal
import proofs.«428006_j27865747816548_3_alg».proof.Proof.Gen.ReferenceIdeal
import proofs.«428006_j27865747816548_3_alg».proof.Proof.Gen.Pre_finite_inputs
import proofs.«428006_j27865747816548_3_alg».proof.Proof.KRun
import proofs.«428006_j27865747816548_3_alg».proof.Proof.KIRun
import proofs.«428006_j27865747816548_3_alg».proof.Proof.RefRunHand
import proofs.«428006_j27865747816548_3_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.HandRun.run m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Proof.AlgebraicClaim.algebraic⟩

end Cert.Proof

end
